-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S65536x8 : Shape := ⟨2, ![65536, 8]⟩
abbrev S4096x16 : Shape := ⟨2, ![4096, 16]⟩
abbrev S16x4096 : Shape := ⟨2, ![16, 4096]⟩
abbrev S4096x48 : Shape := ⟨2, ![4096, 48]⟩
abbrev S48x4096 : Shape := ⟨2, ![48, 4096]⟩
abbrev S4096x4096 : Shape := ⟨2, ![4096, 4096]⟩
abbrev S4096x512 : Shape := ⟨2, ![4096, 512]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S65536x8 : S_.BroadcastsInDim S65536x8 (![] : Fin 0 → Fin S65536x8.rank)
  reducesTo_S65536x8_S_d0_1 : S65536x8.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x48 : S_.BroadcastsInDim S4096x48 (![] : Fin 0 → Fin S4096x48.rank)
  reducesTo_S4096x48_S_d0_1 : S4096x48.ReducesTo [0, 1] S_
  bcast_S_S48x4096 : S_.BroadcastsInDim S48x4096 (![] : Fin 0 → Fin S48x4096.rank)
  reducesTo_S48x4096_S_d0_1 : S48x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part3 {F : FTy → Type} [FloatOps F] (main_arg10 : IVec S4096x512 32) (main_v48 : IVec S_ 1) (main_v50 : IVec S4096x512 1) : IVec S_ 1 :=
  let main_c_19 : IVec S_ 1 := constantI S_ 1 1#1
  let main_v51 : IVec S_ 1 := (fun x v => Host.reduce IntOp.andi x v reducesTo_S4096x512_S_d0_1 h_S_) main_v50 main_c_19
  let main_v52 : IVec S_ 1 := andi main_v48 main_v51
  let main_c_20 : IVec S_ 32 := constantI S_ 32 65536#32
  let main_v53 : IVec S4096x512 32 := broadcastInDim S4096x512 ![] bcast_S_S4096x512 main_c_20
  let main_v54 : IVec S4096x512 1 := cmpi .slt main_arg10 main_v53
  let main_c_21 : IVec S_ 1 := constantI S_ 1 1#1
  let main_v55 : IVec S_ 1 := (fun x v => Host.reduce IntOp.andi x v reducesTo_S4096x512_S_d0_1 h_S_) main_v54 main_c_21
  let main_v56 : IVec S_ 1 := andi main_v52 main_v55
  main_v56

def fn_part2 {F : FTy → Type} [FloatOps F] (main_arg7 : FVec F S48x4096 .f32) (main_arg8 : FVec F S4096x4096 .f32) (main_arg9 : FVec F S4096x4096 .f32) (main_arg10 : IVec S4096x512 32) (main_v33 : IVec S_ 1) : IVec S_ 1 :=
  let main_v34 : FVec F S48x4096 .f32 := Host.absf main_arg7
  let main_cst_12 : FVec F S_ .f32 := constant S_ .f32 0x7F800000#32
  let main_v35 : FVec F S48x4096 .f32 := broadcastInDim S48x4096 ![] bcast_S_S48x4096 main_cst_12
  let main_v36 : IVec S48x4096 1 := cmpf .olt main_v34 main_v35
  let main_c_13 : IVec S_ 1 := constantI S_ 1 1#1
  let main_v37 : IVec S_ 1 := (fun x v => Host.reduce IntOp.andi x v reducesTo_S48x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_c_18 : IVec S_ 32 := constantI S_ 32 4294901760#32
  let main_v49 : IVec S4096x512 32 := broadcastInDim S4096x512 ![] bcast_S_S4096x512 main_c_18
  let main_v50 : IVec S4096x512 1 := cmpi .sge main_arg10 main_v49
  fn_part3 (F := F) main_arg10 main_v48 main_v50

def fn_part1 {F : FTy → Type} [FloatOps F] (main_arg4 : FVec F S4096x16 .f32) (main_arg5 : FVec F S16x4096 .f32) (main_arg6 : FVec F S4096x48 .f32) (main_arg7 : FVec F S48x4096 .f32) (main_arg8 : FVec F S4096x4096 .f32) (main_arg9 : FVec F S4096x4096 .f32) (main_arg10 : IVec S4096x512 32) (main_v13 : IVec S_ 1) (main_v16 : IVec S65536x8 1) : IVec S_ 1 :=
  let main_c_5 : IVec S_ 1 := constantI S_ 1 1#1
  let main_v17 : IVec S_ 1 := (fun x v => Host.reduce IntOp.andi x v reducesTo_S65536x8_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S16x4096 .f32 := Host.absf main_arg5
  let main_cst_8 : FVec F S_ .f32 := constant S_ .f32 0x7F800000#32
  let main_v25 : FVec F S16x4096 .f32 := broadcastInDim S16x4096 ![] bcast_S_S16x4096 main_cst_8
  let main_v26 : IVec S16x4096 1 := cmpf .olt main_v24 main_v25
  let main_c_9 : IVec S_ 1 := constantI S_ 1 1#1
  let main_v27 : IVec S_ 1 := (fun x v => Host.reduce IntOp.andi x v reducesTo_S16x4096_S_d0_1 h_S_) main_v26 main_c_9
  let main_v28 : IVec S_ 1 := andi main_v23 main_v27
  let main_v29 : FVec F S4096x48 .f32 := Host.absf main_arg6
  let main_cst_10 : FVec F S_ .f32 := constant S_ .f32 0x7F800000#32
  let main_v30 : FVec F S4096x48 .f32 := broadcastInDim S4096x48 ![] bcast_S_S4096x48 main_cst_10
  let main_v31 : IVec S4096x48 1 := cmpf .olt main_v29 main_v30
  let main_c_11 : IVec S_ 1 := constantI S_ 1 1#1
  let main_v32 : IVec S_ 1 := (fun x v => Host.reduce IntOp.andi x v reducesTo_S4096x48_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x4096 .f32) (main_arg1 : FVec F S4096 .f32) (main_arg2 : FVec F S4096 .f32) (main_arg3 : FVec F S65536x8 .f32) (main_arg4 : FVec F S4096x16 .f32) (main_arg5 : FVec F S16x4096 .f32) (main_arg6 : FVec F S4096x48 .f32) (main_arg7 : FVec F S48x4096 .f32) (main_arg8 : FVec F S4096x4096 .f32) (main_arg9 : FVec F S4096x4096 .f32) (main_arg10 : IVec S4096x512 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S65536x8 .f32 := Host.absf main_arg3
  let main_cst_4 : FVec F S_ .f32 := constant S_ .f32 0x7F800000#32
  let main_v15 : FVec F S65536x8 .f32 := broadcastInDim S65536x8 ![] bcast_S_S65536x8 main_cst_4
  let main_v16 : IVec S65536x8 1 := cmpf .olt main_v14 main_v15
  fn_part1 (F := F) main_arg4 main_arg5 main_arg6 main_arg7 main_arg8 main_arg9 main_arg10 main_v13 main_v16
-- ==== Kernel.lean ====
abbrev S8192x4096 : Shape := ⟨2, ![8192, 4096]⟩
abbrev S4096 : Shape := ⟨1, ![4096]⟩
abbrev S65536x8 : Shape := ⟨2, ![65536, 8]⟩
abbrev S4096x16 : Shape := ⟨2, ![4096, 16]⟩
abbrev S16x4096 : Shape := ⟨2, ![16, 4096]⟩
abbrev S4096x48 : Shape := ⟨2, ![4096, 48]⟩
abbrev S48x4096 : Shape := ⟨2, ![48, 4096]⟩
abbrev S4096x4096 : Shape := ⟨2, ![4096, 4096]⟩
abbrev S4096x512 : Shape := ⟨2, ![4096, 512]⟩
abbrev S1x4096 : Shape := ⟨2, ![1, 4096]⟩
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S4096x512x1 : Shape := ⟨3, ![4096, 512, 1]⟩
abbrev S1 : Shape := ⟨1, ![1]⟩
abbrev S1x1x1 : Shape := ⟨3, ![1, 1, 1]⟩
abbrev S4096x512x8 : Shape := ⟨3, ![4096, 512, 8]⟩
abbrev S64x4096 : Shape := ⟨2, ![64, 4096]⟩
abbrev S4096x64 : Shape := ⟨2, ![4096, 64]⟩
abbrev S64x1024 : Shape := ⟨2, ![64, 1024]⟩
abbrev S1024x64 : Shape := ⟨2, ![1024, 64]⟩
abbrev S2048x64 : Shape := ⟨2, ![2048, 64]⟩

abbrev nBuf : Space → Nat
  | .hbm => 46
  | .vmem => 30
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S65536x8, .f32⟩
  | .hbm, ⟨4, _⟩ => ⟨S4096x16, .f32⟩
  | .hbm, ⟨5, _⟩ => ⟨S16x4096, .f32⟩
  | .hbm, ⟨6, _⟩ => ⟨S4096x48, .f32⟩
  | .hbm, ⟨7, _⟩ => ⟨S48x4096, .f32⟩
  | .hbm, ⟨8, _⟩ => ⟨S4096x4096, .f32⟩
  | .hbm, ⟨9, _⟩ => ⟨S4096x4096, .f32⟩
  | .hbm, ⟨10, _⟩ => ⟨S4096x512, .i32⟩
  | .hbm, ⟨11, _⟩ => ⟨S1x4096, .f32⟩
  | .hbm, ⟨12, _⟩ => ⟨S8192x4096, .bf16⟩
  | .hbm, ⟨13, _⟩ => ⟨S_, .i32⟩
  | .hbm, ⟨14, _⟩ => ⟨S4096x512, .i32⟩
  | .hbm, ⟨15, _⟩ => ⟨S4096x512, .i1⟩
  | .hbm, ⟨16, _⟩ => ⟨S_, .i32⟩
  | .hbm, ⟨17, _⟩ => ⟨S4096x512, .i32⟩
  | .hbm, ⟨18, _⟩ => ⟨S4096x512, .i32⟩
  | .hbm, ⟨19, _⟩ => ⟨S4096x512, .i32⟩
  | .hbm, ⟨20, _⟩ => ⟨S4096x512x1, .i32⟩
  | .hbm, ⟨21, _⟩ => ⟨S1, .i32⟩
  | .hbm, ⟨22, _⟩ => ⟨S_, .i32⟩
  | .hbm, ⟨23, _⟩ => ⟨S4096x512x1, .i32⟩
  | .hbm, ⟨24, _⟩ => ⟨S4096x512x1, .i1⟩
  | .hbm, ⟨25, _⟩ => ⟨S1x1x1, .i32⟩
  | .hbm, ⟨26, _⟩ => ⟨S4096x512x1, .i32⟩
  | .hbm, ⟨27, _⟩ => ⟨S4096x512x1, .i1⟩
  | .hbm, ⟨28, _⟩ => ⟨S4096x512x1, .i1⟩
  | .hbm, ⟨29, _⟩ => ⟨S_, .i1⟩
  | .hbm, ⟨30, _⟩ => ⟨S4096x512, .i1⟩
  | .hbm, ⟨31, _⟩ => ⟨S4096x512x8, .f32⟩
  | .hbm, ⟨32, _⟩ => ⟨S4096x512x8, .i1⟩
  | .hbm, ⟨33, _⟩ => ⟨S_, .f32⟩
  | .hbm, ⟨34, _⟩ => ⟨S4096x512x8, .f32⟩
  | .hbm, ⟨35, _⟩ => ⟨S4096x512x8, .f32⟩
  | .hbm, ⟨36, _⟩ => ⟨S4096x4096, .f32⟩
  | .hbm, ⟨37, _⟩ => ⟨S4096x4096, .bf16⟩
  | .hbm, ⟨38, _⟩ => ⟨S64x4096, .f32⟩
  | .hbm, ⟨39, _⟩ => ⟨S4096x64, .f32⟩
  | .hbm, ⟨40, _⟩ => ⟨S8192x4096, .bf16⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S1x4096, .f32⟩
  | .hbm, ⟨45, _⟩ => ⟨S8192x4096, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S64x1024, .f32⟩
  | .local _ .vmem, ⟨14, _⟩ => ⟨S64x1024, .f32⟩
  | .local _ .vmem, ⟨15, _⟩ => ⟨S1024x64, .f32⟩
  | .local _ .vmem, ⟨16, _⟩ => ⟨S1024x64, .f32⟩
  | .local _ .vmem, ⟨17, _⟩ => ⟨S2048x1024, .bf16⟩
  | .local _ .vmem, ⟨18, _⟩ => ⟨S2048x1024, .bf16⟩
  | .local _ .vmem, ⟨19, _⟩ => ⟨S2048x1024, .f32⟩
  | .local _ .vmem, ⟨20, _⟩ => ⟨S2048x64, .f32⟩
  | .local _ .vmem, ⟨21, _⟩ => ⟨S2048x1024, .bf16⟩
  | .local _ .vmem, ⟨22, _⟩ => ⟨S2048x1024, .bf16⟩
  | .local _ .vmem, ⟨23, _⟩ => ⟨S1024x1024, .f32⟩
  | .local _ .vmem, ⟨24, _⟩ => ⟨S1024x1024, .f32⟩
  | .local _ .vmem, ⟨25, _⟩ => ⟨S1x1024, .f32⟩
  | .local _ .vmem, ⟨26, _⟩ => ⟨S1x1024, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_15 : BitVec 32 := 0#32
  let v26 : BitVec 1 := Scalar.cmpi .ne v25 c0_i32_15
  v26

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S2048x1024_S2048x1024_0_0 : (Rect.unit (s := S2048x1024) ![0, 0] S2048x1024.size inb_S2048x1024_S2048x1024_0_0).PackedRows (EltTy.packing .bf16)
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x8_0_1 : S4096x512.BroadcastsInDim S4096x512x8 (![0, 1] : Fin 2 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  concatenates_S48x4096_S16x4096_S64x4096_d0 : Shape.Concatenates [S48x4096, S16x4096] S64x4096 0
  concatenates_S4096x48_S4096x16_S4096x64_d1 : Shape.Concatenates [S4096x48, S4096x16] S4096x64 1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S1024x1024_S1024x1024 : S1024x1024.ShapeCasts S1024x1024
  transposes_S1024x1024_p1_0_S1024x1024 : S1024x1024.Transposes [1, 0] S1024x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S64x1024_p1_0_S1024x64 : S64x1024.Transposes [1, 0] S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  bcast_S_S4096 : S_.BroadcastsInDim S4096 (![] : Fin 0 → Fin S4096.rank)
  dot_S2048x1024_S1024x1024_S2048x1024_1_0_0_1_n_n_wf : DotDims.WF S2048x1024 S1024x1024 S2048x1024 [1] [0] [0] [1] [] []
  gather_S65536x8_S4096x512x1_S4096x512x8_2_0_n_n_0_2_18_wf : GatherDims.WF S65536x8 S4096x512x1 S4096x512x8 [2] [0] [] [0] [] 2 ![1, 8]
  dot_S2048x1024_S1024x64_S2048x64_1_0_0_1_n_n_wf : DotDims.WF S2048x1024 S1024x64 S2048x64 [1] [0] [0] [1] [] []
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .bf16 = 32 ∨ (Rect.block (s := S8192x4096) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x4096.size a
  hwx1_2 : ∀ i : grid1.Coords, EltTy.bits .f32 = 32 ∨ (Rect.block (s := S64x4096) S64x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S4096x64.size a
  hwx1_3 : ∀ i : grid1.Coords, EltTy.bits .f32 = 32 ∨ (Rect.block (s := S4096x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x4096.size a
  hwx1_4 : ∀ i : grid1.Coords, EltTy.bits .bf16 = 32 ∨ (Rect.block (s := S8192x4096) S2048x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x4096.size a
  hwx2_3 : ∀ i : grid2.Coords, EltTy.bits .f32 = 32 ∨ (Rect.block (s := S8192x4096) S2048x1024.size (cc2_transform_3 i) (hinb2_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v7) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096 : Shape := ⟨1, ![4096]⟩
abbrev S65536x8 : Shape := ⟨2, ![65536, 8]⟩
abbrev S4096x16 : Shape := ⟨2, ![4096, 16]⟩
abbrev S16x4096 : Shape := ⟨2, ![16, 4096]⟩
abbrev S4096x48 : Shape := ⟨2, ![4096, 48]⟩
abbrev S48x4096 : Shape := ⟨2, ![48, 4096]⟩
abbrev S4096x4096 : Shape := ⟨2, ![4096, 4096]⟩
abbrev S4096x512 : Shape := ⟨2, ![4096, 512]⟩
abbrev S1x4096 : Shape := ⟨2, ![1, 4096]⟩
abbrev S_ : Shape := ⟨0, ![]⟩
abbrev S4096x512x1 : Shape := ⟨3, ![4096, 512, 1]⟩
abbrev S4096x512x8 : Shape := ⟨3, ![4096, 512, 8]⟩
abbrev S8192x48 : Shape := ⟨2, ![8192, 48]⟩
abbrev S8192x16 : Shape := ⟨2, ![8192, 16]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S65536x8, .f32⟩
  | .hbm, ⟨4, _⟩ => ⟨S4096x16, .f32⟩
  | .hbm, ⟨5, _⟩ => ⟨S16x4096, .f32⟩
  | .hbm, ⟨6, _⟩ => ⟨S4096x48, .f32⟩
  | .hbm, ⟨7, _⟩ => ⟨S48x4096, .f32⟩
  | .hbm, ⟨8, _⟩ => ⟨S4096x4096, .f32⟩
  | .hbm, ⟨9, _⟩ => ⟨S4096x4096, .f32⟩
  | .hbm, ⟨10, _⟩ => ⟨S4096x512, .i32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .i32⟩
  | .hbm, ⟨16, _⟩ => ⟨S4096x512, .i32⟩
  | .hbm, ⟨17, _⟩ => ⟨S4096x512, .i1⟩
  | .hbm, ⟨18, _⟩ => ⟨S_, .i32⟩
  | .hbm, ⟨19, _⟩ => ⟨S4096x512, .i32⟩
  | .hbm, ⟨20, _⟩ => ⟨S4096x512, .i32⟩
  | .hbm, ⟨21, _⟩ => ⟨S4096x512, .i32⟩
  | .hbm, ⟨22, _⟩ => ⟨S4096x512x1, .i32⟩
  | .hbm, ⟨23, _⟩ => ⟨S4096x512x8, .f32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S4096x48, .f32⟩
  | .hbm, ⟨31, _⟩ => ⟨S8192x48, .f32⟩
  | .hbm, ⟨32, _⟩ => ⟨S48x4096, .f32⟩
  | .hbm, ⟨33, _⟩ => ⟨S8192x4096, .f32⟩
  | .hbm, ⟨34, _⟩ => ⟨S8192x4096, .f32⟩
  | .hbm, ⟨35, _⟩ => ⟨S4096x16, .f32⟩
  | .hbm, ⟨36, _⟩ => ⟨S8192x16, .f32⟩
  | .hbm, ⟨37, _⟩ => ⟨S16x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  transposes_S4096x4096_S4096x4096_1_0 : S4096x4096.Transposes [1, 0] S4096x4096
  bcast_S_S8192x4096 : S_.BroadcastsInDim S8192x4096 (![] : Fin 0 → Fin S8192x4096.rank)
  transposes_S48x4096_S4096x48_1_0 : S48x4096.Transposes [1, 0] S4096x48
  transposes_S4096x48_S48x4096_1_0 : S4096x48.Transposes [1, 0] S48x4096
  transposes_S16x4096_S4096x16_1_0 : S16x4096.Transposes [1, 0] S4096x16
  transposes_S4096x16_S16x4096_1_0 : S4096x16.Transposes [1, 0] S16x4096
  dot_S8192x4096_S4096x4096_S8192x4096_1_0_0_1_n_n_wf : DotDims.WF S8192x4096 S4096x4096 S8192x4096 [1] [0] [0] [1] [] []
  gather_S65536x8_S4096x512x1_S4096x512x8_2_0_n_n_0_2_18_wf : GatherDims.WF S65536x8 S4096x512x1 S4096x512x8 [2] [0] [] [0] [] 2 ![1, 8]
  dot_S8192x4096_S4096x48_S8192x48_1_0_0_1_n_n_wf : DotDims.WF S8192x4096 S4096x48 S8192x48 [1] [0] [0] [1] [] []
  dot_S8192x48_S48x4096_S8192x4096_1_0_0_1_n_n_wf : DotDims.WF S8192x48 S48x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S8192x4096_S4096x48_S8192x48_1_0_0_1_n_n : DotDims S8192x4096 S4096x48 S8192x48 where
  lhsContracting := [1]
  rhsContracting := [0]
  lhsNonContracting := [0]
  rhsNonContracting := [1]
  lhsBatch := []
  rhsBatch := []
  wf := dot_S8192x4096_S4096x48_S8192x48_1_0_0_1_n_n_wf
def dot_S8192x48_S48x4096_S8192x4096_1_0_0_1_n_n : DotDims S8192x48 S48x4096 S8192x4096 where
  lhsContracting := [1]
  rhsContracting := [0]
  lhsNonContracting := [0]
  rhsNonContracting := [1]
  lhsBatch := []
  rhsBatch := []
  wf := dot_S8192x48_S48x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.Lib.lean ====
import Idealize.ShloMosaic.Lib.Pipeline.FrameBody
import Idealize.ShloMosaic.Lib.Writes
import Idealize.ShloMosaic.Lib.Ring

namespace Idealize.ShloMosaic

open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A whole memref's buffer at the raw contents that read `X` is owned at `X`: reading inverts `unread`. -/
theorem owns_unread (c : Thread nD τ) {sp : Space} {sh : Shape} {e : EltTy} {m : Memref sig c.2.kind sp sh e} (h : m.IsWhole)
    (q : PosShare TreeShare) (X : sh.Idx → Val e) : (m.view.loc c ↦[m.view.set]{q} h.unread X : sProp 𝕄) ⊢ owns c m q X := by
  have key := owns_intro (Ix := Ix) (Name := Name) (U := U) (Lvl := Lvl) c m q (h.unread X)
  rwa [h.read_unread] at key

/-- The same with `owns` opened, as a body proof meets it. -/
theorem unread_owned (c : Thread nD τ) {sp : Space} {sh : Shape} {e : EltTy} {m : Memref sig c.2.kind sp sh e} (h : m.IsWhole)
    (q : PosShare TreeShare) (X : sh.Idx → Val e) :
    (m.view.loc c ↦[m.view.set]{q} h.unread X : sProp 𝕄) ⊢ iprop(∃ f, ⌜m.view.read Val f = X⌝ ∗ (m.view.loc c ↦[m.view.set]{q} f)) :=
  owns_unread c h q X

/-- Pieces covering the shape, written into a memref's buffer over any contents, are owned at their read-back over
    any other contents through any other view: a covering list of writes forgets what was there. -/
theorem owns_writes_of_cover (c : Thread nD τ) {sp : Space} {sh : Shape} {e : EltTy} (m : Memref sig c.2.kind sp sh e)
    (q : PosShare TreeShare) {sig' : RefSig} {κ' : Kind} {sp' : Space} (v' : View sig' κ' sp' sh e) (f' : v'.ty.Contents Val)
    (L : List (View.Piece Val sh e)) (hL : ∀ y, ∃ p ∈ L, y ∈ p.1.set) :
    (iprop(∃ f, m.view.loc c ↦[m.view.set]{q} m.view.writes Val f L) : sProp 𝕄) ⊢ owns c m q (v'.read Val (v'.writes Val f' L)) := by
  unfold owns
  iintro ⟨%f, H⟩
  iexists m.view.writes Val f L
  isplitr
  · ipureintro; exact View.read_writes_of_cover _ _ _ _ _ hL
  · iexact H

/-- A memref's buffer after stores `L` that tile its shape, whatever it held before. -/
noncomputable def ownsTiled (c : Thread nD τ) {sp : Space} {sh : Shape} {e : EltTy} (m : Memref sig c.2.kind sp sh e) (L : List (View.Piece Val sh e)) : sProp 𝕄 :=
  iprop(⌜View.Piece.tiledL L sh.size = true⌝ ∗ ∃ f, m.view.loc c ↦[m.view.set]{fullShare} m.view.writes Val f L)

/-- It is owned at the stores' canonical contents. -/
theorem ownsTiled_owns [∀ e, Nonempty (Val e)] (c : Thread nD τ) {sp : Space} {sh : Shape} {e : EltTy} (m : Memref sig c.2.kind sp sh e)
    (L : List (View.Piece Val sh e)) : (ownsTiled c m L : sProp 𝕄) ⊢ owns c m fullShare (View.canon L) := by
  unfold ownsTiled
  iintro ⟨%h, %f, H⟩
  have key := owns_intro (Ix := Ix) (Name := Name) (U := U) (Lvl := Lvl) c m fullShare (m.view.writes Val f L)
  rw [View.read_writes_eq_canon _ _ _ (View.cover_of_tiledL L sh.size h)] at key
  iapply key; iexact H

end Idealize.ShloMosaic
-- ==== Proof.K.R0.Runs.lean ====
import proofs.«426325_j37211596652926_1_alg».proof.Proof.Gen.Kernel.Launch
import proofs.«426325_j37211596652926_1_alg».proof.Proof.Gen.Kernel.Skeleton
import proofs.«426325_j37211596652926_1_alg».proof.Proof.Gen.Kernel.Points
import proofs.«426325_j37211596652926_1_alg».proof.Proof.Lib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- Window `w`'s block at point `t` of the array `V` holds for it when the region is entered. -/
noncomputable def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The body's first conditional (the accumulator is zeroed): the contraction coordinate is 0, -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- and its second (the accumulator is stored to the output block): it is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem idle0_3 : ∀ t : Fin cfg0.N, cfg0.idle 3 (grid0.coords t) = true ↔ ¬t.val % 4 = 3 := by decide +kernel

/-- The memref the body is handed for window `w` at point `t`: a whole buffer. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator. -/
abbrev scM0_0 : Memref sig .tc .vmem S2048x1024 .f32 := Memref.whole cc0_scratch0

/-- What the region holds beside the accumulator: the other scoped buffers unopened, and the generator register. -/
def rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0_0, owns_whole]; try rfl

/-- The launch hands the region the accumulator at some contents beside the rest, -/
theorem PhiA0_in (c : Dev nD) : (Pipeline.ΦA spec0 c : sProp 𝕄) ⊢ iprop(∃ d, owns (c : Thread nD τ) scM0_0 fullShare d ∗ rest0 c) := by
  rw [PhiA0_eq]; unfold rest0
  iintro ⟨⟨⟨%d, HS⟩, Hr⟩, Hg⟩
  iexists d; iframe

/-- and takes it back at any. -/
theorem PhiA0_out (c : Dev nD) (d : Vec F S2048x1024 .f32) : iprop(owns (c : Thread nD τ) scM0_0 fullShare d ∗ rest0 c) ⊢ (Pipeline.ΦA spec0 c : sProp 𝕄) := by
  rw [PhiA0_eq]; unfold rest0
  iintro ⟨HS, Hr, Hg⟩
  iframe Hr Hg
  iexists d; iexact HS

variable (V : (c : Dev nD) → (b : Ref sig .tc) → Buf (Elt F) ((c : Thread nD τ).loc b)) (c : Dev nD) (t : Fin cfg0.N)

/-- The three inputs' memrefs at point `t`, at their blocks. -/
def ins0 : sProp 𝕄 := iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t))

theorem ins0_intro : iprop(((ms0_0 t).view.loc (c : Thread nD τ) ↦[(ms0_0 t).view.set]{fullShare} (hs0_0 t).unread (iblk0 V c 0 t)) ∗ ((ms0_1 t).view.loc (c : Thread nD τ) ↦[(ms0_1 t).view.set]{fullShare} (hs0_1 t).unread (iblk0 V c 1 t)) ∗ ((ms0_2 t).view.loc (c : Thread nD τ) ↦[(ms0_2 t).view.set]{fullShare} (hs0_2 t).unread (iblk0 V c 2 t))) ⊢ (ins0 V c t : sProp 𝕄) := by
  unfold ins0
  iintro ⟨H0, H1, H2⟩
  isplitl [H0]; · iapply owns_unread (c : Thread nD τ) (hs0_0 t); iexact H0
  isplitl [H1]; · iapply owns_unread (c : Thread nD τ) (hs0_1 t); iexact H1
  iapply owns_unread (c : Thread nD τ) (hs0_2 t); iexact H2

/-- The body's triple at point `t`: the inputs at their blocks pass through, `P` becomes `Q`. -/
def Triple0 (P Q : sProp 𝕄) : Prop := ∀ (E : Set ℕ) (K : PUnit → sProp 𝕄),
  iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ P ∗ (iprop(ins0 V c t ∗ Q) -∗ K ⟨⟩))
    ⊢ wp frame (wpE (defs₀ (F := F)) Variants.none c none) E (bodyAt0 t) K

end Cert.Kernel.Hand

end
-- ==== Proof.K.R0.RunA.lean ====
import proofs.«426325_j37211596652926_1_alg».proof.Proof.K.R0.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

/-- The first contraction step: the accumulator, at anything, is zeroed and updated. Its stores, with the triple. -/
def runA0 (h0 : t.val % 4 = 0) :
    { LS0 : List (View.Piece (Elt F) S2048x1024 .f32) // Triple0 V c t iprop(∃ d, owns (c : Thread nD τ) scM0_0 fullShare d) (ownsTiled (c : Thread nD τ) scM0_0 LS0) } := by
  refine ⟨?_, fun E K => ?run⟩
  case run =>
    have hc0 := (hcond0_0 t).mpr h0
    have hc1 : ¬cond0_1 (grid0.coords t) := fun h => by have := (hcond0_1 t).mp h; omega
    unfold bodyAt0
    simp only [cc0__prescale_matmul_kernel_eq_skeleton]; unfold cc0__prescale_matmul_kernel_skel
    unfold owns
    iintro ⟨⟨%f0, %hf0, H0⟩, ⟨%f1, %hf1, H1⟩, ⟨%f2, %hf2, H2⟩, ⟨%ds0, %fs0, -, HS0⟩, Hk⟩
    obtain rfl := (hs0_0 t).eq_unread hf0; obtain rfl := (hs0_1 t).eq_unread hf1; obtain rfl := (hs0_2 t).eq_unread hf2
    sl_exec (disch := first | exact hc0 | exact hc1)
    sl_step
    iapply Hk
    isplitl [H0 H1 H2]
    · iapply ins0_intro V c t; iframe
    unfold ownsTiled; isplitr; swap; · iexists _; iexact HS0
    ipureintro; sl_kernel_rfl

end Cert.Kernel.Hand

end
-- ==== Proof.K.R0.RunB.lean ====
import proofs.«426325_j37211596652926_1_alg».proof.Proof.K.R0.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N) (xs0 : Vec F S2048x1024 .f32)

/-- A middle contraction step: the accumulator, at `xs0`, is updated. Its stores, with the triple. -/
def runB0 (h0 : ¬t.val % 4 = 0) (h1 : ¬t.val % 4 = 3) :
    { LS0 : List (View.Piece (Elt F) S2048x1024 .f32) // Triple0 V c t (owns (c : Thread nD τ) scM0_0 fullShare xs0) (ownsTiled (c : Thread nD τ) scM0_0 LS0) } := by
  refine ⟨?_, fun E K => ?run⟩
  case run =>
    have hc0 := mt (hcond0_0 t).mp h0
    have hc1 := mt (hcond0_1 t).mp h1
    unfold bodyAt0
    simp only [cc0__prescale_matmul_kernel_eq_skeleton]; unfold cc0__prescale_matmul_kernel_skel
    unfold owns
    iintro ⟨⟨%f0, %hf0, H0⟩, ⟨%f1, %hf1, H1⟩, ⟨%f2, %hf2, H2⟩, ⟨%fs0, %hfs0, HS0⟩, Hk⟩
    obtain rfl := (hs0_0 t).eq_unread hf0; obtain rfl := (hs0_1 t).eq_unread hf1; obtain rfl := (hs0_2 t).eq_unread hf2; obtain rfl := (Memref.isWhole_whole cc0_scratch0).eq_unread hfs0
    sl_exec (disch := first | exact hc0 | exact hc1)
    sl_step
    iapply Hk
    isplitl [H0 H1 H2]
    · iapply ins0_intro V c t; iframe
    unfold ownsTiled; isplitr; swap; · iexists _; iexact HS0
    ipureintro; sl_kernel_rfl

end Cert.Kernel.Hand

end
-- ==== Proof.K.R0.RunC.lean ====
import proofs.«426325_j37211596652926_1_alg».proof.Proof.K.R0.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N) (xs0 : Vec F S2048x1024 .f32)

/-- The last contraction step: the accumulator, at `xs0`, is updated, and stored over the output block. Both buffers' stores, with the triple. -/
def runC0 (h1 : t.val % 4 = 3) :
    Σ' L3 : List (View.Piece (Elt F) S2048x1024 .bf16), { LS0 : List (View.Piece (Elt F) S2048x1024 .f32) // Triple0 V c t iprop((∃ d, owns (c : Thread nD τ) (ms0_3 t) fullShare d) ∗ owns (c : Thread nD τ) scM0_0 fullShare xs0) iprop(ownsTiled (c : Thread nD τ) (ms0_3 t) L3 ∗ ownsTiled (c : Thread nD τ) scM0_0 LS0) } := by
  refine ⟨?_, ?_, fun E K => ?run⟩
  case run =>
    have hc0 : ¬cond0_0 (grid0.coords t) := fun h => by have := (hcond0_0 t).mp h; omega
    have hc1 := (hcond0_1 t).mpr h1
    unfold bodyAt0
    simp only [cc0__prescale_matmul_kernel_eq_skeleton]; unfold cc0__prescale_matmul_kernel_skel
    unfold owns
    iintro ⟨⟨%f0, %hf0, H0⟩, ⟨%f1, %hf1, H1⟩, ⟨%f2, %hf2, H2⟩, ⟨⟨%d3, %f3, -, H3⟩, ⟨%fs0, %hfs0, HS0⟩⟩, Hk⟩
    obtain rfl := (hs0_0 t).eq_unread hf0; obtain rfl := (hs0_1 t).eq_unread hf1; obtain rfl := (hs0_2 t).eq_unread hf2; obtain rfl := (Memref.isWhole_whole cc0_scratch0).eq_unread hfs0
    sl_exec (disch := first | exact hc0 | exact hc1)
    sl_step
    iapply Hk
    isplitl [H0 H1 H2]
    · iapply ins0_intro V c t; iframe
    isplitl [H3]
    · unfold ownsTiled; isplitr; swap; · iexists _; iexact H3
      ipureintro; sl_kernel_rfl
    unfold ownsTiled; isplitr; swap; · iexists _; iexact HS0
    ipureintro; sl_kernel_rfl

end Cert.Kernel.Hand

end
-- ==== Proof.K.R0.Frame.lean ====
import proofs.«426325_j37211596652926_1_alg».proof.Proof.K.R0.RunA
import proofs.«426325_j37211596652926_1_alg».proof.Proof.K.R0.RunB
import proofs.«426325_j37211596652926_1_alg».proof.Proof.K.R0.RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- What the accumulator holds before point `n`: what the case of point `n - 1` left there, over what that point found (before the first point, nothing that is read). -/
def accAt0 : (n : ℕ) → n ≤ cfg0.N → Vec F S2048x1024 .f32
  | 0, _ => View.canon []
  | n + 1, hn =>
    if h0 : n % 4 = 0 then View.canon (runA0 V c ⟨n, hn⟩ h0).1
    else if h1 : n % 4 = 3 then View.canon (runC0 V c ⟨n, hn⟩ (accAt0 n (Nat.le_of_succ_le hn)) h1).2.1
    else View.canon (runB0 V c ⟨n, hn⟩ (accAt0 n (Nat.le_of_succ_le hn)) h0 h1).1

variable (t : Fin cfg0.N)

theorem accAt0_A (h0 : t.val % 4 = 0) : accAt0 V c (t.val + 1) t.isLt = View.canon (runA0 V c t h0).1 := dif_pos h0
theorem accAt0_B (h0 : ¬t.val % 4 = 0) (h1 : ¬t.val % 4 = 3) :
    accAt0 V c (t.val + 1) t.isLt = View.canon (runB0 V c t (accAt0 V c t.val t.isLt.le) h0 h1).1 := (dif_neg h0).trans (dif_neg h1)
theorem accAt0_C (h0 : ¬t.val % 4 = 0) (h1 : t.val % 4 = 3) :
    accAt0 V c (t.val + 1) t.isLt = View.canon (runC0 V c t (accAt0 V c t.val t.isLt.le) h1).2.1 := (dif_neg h0).trans (dif_pos h1)

/-- What the output block holds after point `t`: the last contraction step's store (elsewhere nothing that is read). -/
def outAt0 : Vec F S2048x1024 .bf16 :=
  if h1 : t.val % 4 = 3 then View.canon (runC0 V c t (accAt0 V c t.val t.isLt.le) h1).1 else View.canon []

/-- The region invariant before point `n`: the accumulator at what the point before left in it (at anything before the first), beside the rest. -/
def Phi0 (n : ℕ) (hn : n ≤ cfg0.N) : sProp 𝕄 :=
  iprop(∃ d, ⌜n ≠ 0 → d = accAt0 V c n hn⌝ ∗ owns (c : Thread nD τ) scM0_0 fullShare d ∗ rest0 c)

/-- The region's proof data: the arrays as it finds them; each input's buffer left at its block, the output's at `outAt0`. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ n := Phi0 V c n.val (Nat.le_of_lt_succ n.isLt)
  q _ := fullShare
  owed _ := 0

theorem A_eq0 (w : Fin cfg0.W) : (dat0 V c).A w = V c (Pipeline.arrRef spec0 w) := rfl

/-- What the body finds in each input's buffer at a point is the input's block there. -/
theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl

/-- The body at any point: the case `t % 4` selects runs on the input blocks and the accumulator as the invariant holds it, and leaves the next point's invariant; the output block changes at the last contraction step only. -/
theorem sound_body0 :
    iprop(Phi0 V c t.val t.isLt.le ∗ (dat0 V c).owesAt () t.castSucc
      ∗ (∃ d, owns (c : Thread nD τ) (ms0_0 t) fullShare ((dat0 V c).before 0 t d)) ∗ (∃ d, owns (c : Thread nD τ) (ms0_1 t) fullShare ((dat0 V c).before 1 t d))
      ∗ (∃ d, owns (c : Thread nD τ) (ms0_2 t) fullShare ((dat0 V c).before 2 t d)) ∗ (∃ d, owns (c : Thread nD τ) (ms0_3 t) fullShare ((dat0 V c).before 3 t d)))
    ⊢ wp frame (wpE (defs₀ (F := F)) Variants.none c none) Set.univ (bodyAt0 t) fun _ =>
      iprop(Phi0 V c (t.val + 1) t.isLt ∗ (dat0 V c).owesAt () t.castSucc
        ∗ owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ (dat0 V c).leavesExact 3 t) := by
  simp only [before0_0, before0_1, before0_2]
  unfold Phi0 bodyAt0
  iintro ⟨⟨%d, %hd, HS, HR⟩, Ho, ⟨%d0, H0⟩, ⟨%d1, H1⟩, ⟨%d2, H2⟩, ⟨%d3, H3⟩⟩
  by_cases h1 : t.val % 4 = 3
  · have h0 : ¬t.val % 4 = 0 := by omega
    obtain rfl := hd (by omega)
    rw [accAt0_C V c t h0 h1, show (dat0 V c).leavesExact 3 t = owns (c : Thread nD τ) (ms0_3 t) fullShare (View.canon (runC0 V c t (accAt0 V c t.val t.isLt.le) h1).1) from by
      unfold Dat.leavesExact; rw [Bool.eq_false_iff.mpr (mt (idle0_3 t).mp (not_not_intro h1))]
      exact congrArg (owns (c : Thread nD τ) (ms0_3 t) fullShare) (dif_pos h1)]
    iapply (runC0 V c t _ h1).2.2 Set.univ _
    iframe H0 H1 H2 HS
    isplitl [H3]; · iexists _; iexact H3
    iintro ⟨Hin, H3, HS⟩
    unfold ins0; icases Hin with ⟨H0, H1, H2⟩
    isplitl [HS HR]
    · iexists _; isplitr; · ipureintro; exact fun _ => rfl
      isplitl [HS]; · iapply ownsTiled_owns; iexact HS
      iexact HR
    iframe Ho H0 H1 H2
    iapply ownsTiled_owns; iexact H3
  · rw [Dat.leavesExact_idle (dat0 V c) 3 t ((idle0_3 t).mpr h1) (Bool.eq_false_iff.mpr (mt (flush0_3 t).mp h1))]
    by_cases h0 : t.val % 4 = 0
    · rw [accAt0_A V c t h0]
      iapply (runA0 V c t h0).2 Set.univ _
      iframe H0 H1 H2
      isplitl [HS]; · iexists d; iexact HS
      iintro ⟨Hin, HS⟩
      unfold ins0; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3
    · obtain rfl := hd (by omega)
      rw [accAt0_B V c t h0 h1]
      iapply (runB0 V c t _ h0 h1).2 Set.univ _
      iframe H0 H1 H2 HS
      iintro ⟨Hin, HS⟩
      unfold ins0; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := by
  refine (PhiA0_in c).trans ?_
  show _ ⊢ Phi0 V c 0 (Nat.zero_le _)
  unfold Phi0
  iintro ⟨%d, H⟩
  iexists d; isplitr; · ipureintro; exact fun h => absurd rfl h
  iexact H

theorem hout0 : (dat0 V c).Φ (Fin.last cfg0.N) ⊢ Pipeline.ΦA spec0 c := by
  show Phi0 V c _ _ ⊢ _
  unfold Phi0
  iintro ⟨%d, -, H⟩
  iapply PhiA0_out c d; iexact H

end Cert.Kernel.Hand

end
-- ==== Proof.K.R1.Runs.lean ====
import proofs.«426325_j37211596652926_1_alg».proof.Proof.Gen.Kernel.Launch
import proofs.«426325_j37211596652926_1_alg».proof.Proof.Gen.Kernel.Skeleton
import proofs.«426325_j37211596652926_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«426325_j37211596652926_1_alg».proof.Proof.Lib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region finds. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

/-- The first branch is taken at the first contraction block, the second at the last. -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem idle1_4 : ∀ t : Fin cfg1.N, t.val % 4 ≠ 3 → cfg1.idle 4 (grid1.coords t) = true ∧ (cfg1.win 4).flush t = false := by decide +kernel
theorem live1_4 : ∀ t : Fin cfg1.N, t.val % 4 = 3 → cfg1.idle 4 (grid1.coords t) = false := by decide +kernel

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev scM1_0 : Memref sig .tc .vmem S2048x1024 .f32 := Memref.whole cc1_scratch0
abbrev scM1_1 : Memref sig .tc .vmem S2048x64 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's base invariant with the two accumulators set apart, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [Pipeline.scopedRest_split_of_list spec1 c [cc1_scratch0, cc1_scratch1] (by decide) (by decide)]
  simp only [scM1_0, scM1_1, owns_whole]; try rfl

/-- A buffer held at the writes `L` (last first) over some earlier contents. -/
def wr {S : Shape} {φ : EltTy} (c : Dev nD) (m : Memref sig .tc .vmem S φ) (L : List (View.Piece (Elt F) S φ)) : sProp 𝕄 :=
  iprop(∃ f, m.view.loc (c : Thread nD τ) ↦[m.view.set]{fullShare} m.view.writes (Elt F) f L)

/-- Writes that tile the buffer leave their canonical contents, whatever it held. -/
theorem owns_canon {S : Shape} {φ : EltTy} (c : Dev nD) (m : Memref sig .tc .vmem S φ) (L : List (View.Piece (Elt F) S φ))
    (hL : View.Piece.tiledL L S.size = true) : wr c m L ⊢ owns (c : Thread nD τ) m fullShare (View.canon L) := by
  unfold wr owns; iintro ⟨%f, H⟩; iexists _; isplitr; swap; · iexact H
  ipureintro; exact View.read_writes_eq_canon _ _ _ (View.cover_of_tiledL L _ hL)

variable (c : Dev nD) (t : Fin cfg1.N)

/-- The body's triple at point `t`: the four inputs at their blocks are handed back; `P` is what else it takes, `Q` what it hands back for that. -/
def Run1 (P Q : sProp 𝕄) : Prop := ∀ (E : Set ℕ) (K : PUnit → sProp 𝕄),
  iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (iblk1 V c 3 t) ∗ P
      ∗ (iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (iblk1 V c 3 t) ∗ Q) -∗ K ⟨⟩))
    ⊢ wp frame (wpE (defs₀ (F := F)) Variants.none c none) E (bodyAt1 t) K

/-- First contraction block: both accumulators are reset, then the block products added; the output block is not touched. -/
def runA (h0 : t.val % 4 = 0) :
    Σ' (LS0 : List (View.Piece (Elt F) S2048x1024 .f32)), { LS1 : List (View.Piece (Elt F) S2048x64 .f32) //
      ∀ xi4, Run1 V c t
        iprop(owns (c : Thread nD τ) (ms1_4 t) fullShare xi4 ∗ (∃ d, owns (c : Thread nD τ) scM1_0 fullShare d) ∗ (∃ d, owns (c : Thread nD τ) scM1_1 fullShare d))
        iprop(owns (c : Thread nD τ) (ms1_4 t) fullShare xi4 ∗ wr c scM1_0 LS0 ∗ wr c scM1_1 LS1) } := by
  refine ⟨?_, ?_, fun xi4 E K => ?run⟩
  case run =>
    have hc0 := (hcond1_0 t).mpr h0
    have hc1 : ¬cond1_1 (grid1.coords t) := fun h => by have := (hcond1_1 t).mp h; omega
    unfold bodyAt1
    simp only [cc1__decode_matmul_kernel_eq_skeleton]; unfold cc1__decode_matmul_kernel_skel
    unfold owns wr
    iintro ⟨⟨%f0, %hf0, H0⟩, ⟨%f1, %hf1, H1⟩, ⟨%f2, %hf2, H2⟩, ⟨%f3, %hf3, H3⟩, ⟨⟨%f4, %hf4, H4⟩, ⟨%ds0, %fs0, -, HS0⟩, ⟨%ds1, %fs1, -, HS1⟩⟩, Hk⟩
    obtain rfl := (hs1_0 t).eq_unread hf0; obtain rfl := (hs1_1 t).eq_unread hf1; obtain rfl := (hs1_2 t).eq_unread hf2
    obtain rfl := (hs1_3 t).eq_unread hf3; obtain rfl := (hs1_4 t).eq_unread hf4
    sl_exec (disch := first | exact hc0 | exact hc1)
    sl_step
    iapply Hk
    isplitl [H0]; · iapply unread_owned (c : Thread nD τ) (hs1_0 t); iexact H0
    isplitl [H1]; · iapply unread_owned (c : Thread nD τ) (hs1_1 t); iexact H1
    isplitl [H2]; · iapply unread_owned (c : Thread nD τ) (hs1_2 t); iexact H2
    isplitl [H3]; · iapply unread_owned (c : Thread nD τ) (hs1_3 t); iexact H3
    isplitl [H4]; · iapply unread_owned (c : Thread nD τ) (hs1_4 t); iexact H4
    isplitl [HS0]; · iexists _; iexact HS0
    iexists _; iexact HS1

/-- A middle contraction block: the block products are added to what the accumulators held; the output block is not touched. -/
def runB (h0 : ¬t.val % 4 = 0) (h1 : ¬t.val % 4 = 3) (a : Vec F S2048x1024 .f32 × Vec F S2048x64 .f32) :
    Σ' (LS0 : List (View.Piece (Elt F) S2048x1024 .f32)), { LS1 : List (View.Piece (Elt F) S2048x64 .f32) //
      ∀ xi4, Run1 V c t
        iprop(owns (c : Thread nD τ) (ms1_4 t) fullShare xi4 ∗ owns (c : Thread nD τ) scM1_0 fullShare a.1 ∗ owns (c : Thread nD τ) scM1_1 fullShare a.2)
        iprop(owns (c : Thread nD τ) (ms1_4 t) fullShare xi4 ∗ wr c scM1_0 LS0 ∗ wr c scM1_1 LS1) } := by
  refine ⟨?_, ?_, fun xi4 E K => ?run⟩
  case run =>
    have hc0 : ¬cond1_0 (grid1.coords t) := fun h => h0 ((hcond1_0 t).mp h)
    have hc1 : ¬cond1_1 (grid1.coords t) := fun h => h1 ((hcond1_1 t).mp h)
    unfold bodyAt1
    simp only [cc1__decode_matmul_kernel_eq_skeleton]; unfold cc1__decode_matmul_kernel_skel
    unfold owns wr
    iintro ⟨⟨%f0, %hf0, H0⟩, ⟨%f1, %hf1, H1⟩, ⟨%f2, %hf2, H2⟩, ⟨%f3, %hf3, H3⟩, ⟨⟨%f4, %hf4, H4⟩, ⟨%fs0, %hfs0, HS0⟩, ⟨%fs1, %hfs1, HS1⟩⟩, Hk⟩
    obtain rfl := (hs1_0 t).eq_unread hf0; obtain rfl := (hs1_1 t).eq_unread hf1; obtain rfl := (hs1_2 t).eq_unread hf2
    obtain rfl := (hs1_3 t).eq_unread hf3; obtain rfl := (hs1_4 t).eq_unread hf4
    obtain rfl := (Memref.isWhole_whole cc1_scratch0).eq_unread hfs0; obtain rfl := (Memref.isWhole_whole cc1_scratch1).eq_unread hfs1
    sl_exec (disch := first | exact hc0 | exact hc1)
    sl_step
    iapply Hk
    isplitl [H0]; · iapply unread_owned (c : Thread nD τ) (hs1_0 t); iexact H0
    isplitl [H1]; · iapply unread_owned (c : Thread nD τ) (hs1_1 t); iexact H1
    isplitl [H2]; · iapply unread_owned (c : Thread nD τ) (hs1_2 t); iexact H2
    isplitl [H3]; · iapply unread_owned (c : Thread nD τ) (hs1_3 t); iexact H3
    isplitl [H4]; · iapply unread_owned (c : Thread nD τ) (hs1_4 t); iexact H4
    isplitl [HS0]; · iexists _; iexact HS0
    iexists _; iexact HS1

/-- Last contraction block: the products are added, then the output block is stored from the accumulators and the thin left factor. -/
def runC (h0 : ¬t.val % 4 = 0) (h1 : t.val % 4 = 3) (a : Vec F S2048x1024 .f32 × Vec F S2048x64 .f32) :
    Σ' (L4 : List (View.Piece (Elt F) S2048x1024 .bf16)) (LS0 : List (View.Piece (Elt F) S2048x1024 .f32)), { LS1 : List (View.Piece (Elt F) S2048x64 .f32) //
      Run1 V c t
        iprop((∃ d, owns (c : Thread nD τ) (ms1_4 t) fullShare d) ∗ owns (c : Thread nD τ) scM1_0 fullShare a.1 ∗ owns (c : Thread nD τ) scM1_1 fullShare a.2)
        iprop(wr c (ms1_4 t) L4 ∗ wr c scM1_0 LS0 ∗ wr c scM1_1 LS1) } := by
  refine ⟨?_, ?_, ?_, fun E K => ?run⟩
  case run =>
    have hc0 : ¬cond1_0 (grid1.coords t) := fun h => h0 ((hcond1_0 t).mp h)
    have hc1 := (hcond1_1 t).mpr h1
    unfold bodyAt1
    simp only [cc1__decode_matmul_kernel_eq_skeleton]; unfold cc1__decode_matmul_kernel_skel
    unfold owns wr
    iintro ⟨⟨%f0, %hf0, H0⟩, ⟨%f1, %hf1, H1⟩, ⟨%f2, %hf2, H2⟩, ⟨%f3, %hf3, H3⟩, ⟨⟨%d4, %f4, -, H4⟩, ⟨%fs0, %hfs0, HS0⟩, ⟨%fs1, %hfs1, HS1⟩⟩, Hk⟩
    obtain rfl := (hs1_0 t).eq_unread hf0; obtain rfl := (hs1_1 t).eq_unread hf1; obtain rfl := (hs1_2 t).eq_unread hf2
    obtain rfl := (hs1_3 t).eq_unread hf3
    obtain rfl := (Memref.isWhole_whole cc1_scratch0).eq_unread hfs0; obtain rfl := (Memref.isWhole_whole cc1_scratch1).eq_unread hfs1
    sl_exec (disch := first | exact hc0 | exact hc1)
    sl_step
    iapply Hk
    isplitl [H0]; · iapply unread_owned (c : Thread nD τ) (hs1_0 t); iexact H0
    isplitl [H1]; · iapply unread_owned (c : Thread nD τ) (hs1_1 t); iexact H1
    isplitl [H2]; · iapply unread_owned (c : Thread nD τ) (hs1_2 t); iexact H2
    isplitl [H3]; · iapply unread_owned (c : Thread nD τ) (hs1_3 t); iexact H3
    isplitl [H4]; · iexists _; iexact H4
    isplitl [HS0]; · iexists _; iexact HS0
    iexists _; iexact HS1

end Cert.Kernel.Hand

end
-- ==== Proof.K.R1.Frame.lean ====
import proofs.«426325_j37211596652926_1_alg».proof.Proof.K.R1.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Point
variable (c : Dev nD) (t : Fin cfg1.N)

/-- One point's work: what it leaves in the output block and in the two accumulators, given what the accumulators held. -/
def step1 (a : Vec F S2048x1024 .f32 × Vec F S2048x64 .f32) : Vec F S2048x1024 .bf16 × Vec F S2048x1024 .f32 × Vec F S2048x64 .f32 :=
  if h0 : t.val % 4 = 0 then (View.canon [], View.canon (runA V c t h0).1, View.canon (runA V c t h0).2.1)
  else if h1 : t.val % 4 = 3 then (View.canon (runC V c t h0 h1 a).1, View.canon (runC V c t h0 h1 a).2.1, View.canon (runC V c t h0 h1 a).2.2.1)
  else (View.canon [], View.canon (runB V c t h0 h1 a).1, View.canon (runB V c t h0 h1 a).2.1)

end Point

/-- What the two accumulators hold before point `n` (nothing in particular before the first). -/
def accs1 (c : Dev nD) : (n : ℕ) → n ≤ cfg1.N → Vec F S2048x1024 .f32 × Vec F S2048x64 .f32
  | 0, _ => (View.canon [], View.canon [])
  | n + 1, hn => (step1 V c ⟨n, hn⟩ (accs1 c n (Nat.le_of_lt hn))).2

/-- What point `t` leaves. -/
def outsAt1 (c : Dev nD) (t : Fin cfg1.N) := step1 V c t (accs1 V c t.val t.isLt.le)

/-- The invariant before point `n`: the base invariant at the start, afterwards with the accumulators at what the point before left. -/
def PhiS1 (c : Dev nD) (n : ℕ) (hn : n ≤ cfg1.N) : sProp 𝕄 :=
  if n = 0 then Pipeline.ΦA spec1 c
  else iprop(iprop(iprop(owns (c : Thread nD τ) scM1_0 fullShare (accs1 V c n hn).1 ∗ owns (c : Thread nD τ) scM1_1 fullShare (accs1 V c n hn).2) ∗ rest1 c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
  Φ t := PhiS1 V c t.val (Nat.le_of_lt_succ t.isLt)
  q _ := fullShare
  owed _ := 0

theorem Phi_cast (c : Dev nD) (t : Fin cfg1.N) : (dat1 V c).Φ t.castSucc = PhiS1 V c t.val t.isLt.le := rfl

theorem A_eq1 (c : Dev nD) (w : Fin cfg1.W) : (dat1 V c).A w = V c (Pipeline.arrRef spec1 w) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

/-- Whatever the point, the invariant before it holds the two accumulators at some contents. -/
theorem Phi_some (c : Dev nD) (n : ℕ) (hn : n ≤ cfg1.N) :
    PhiS1 V c n hn ⊢ iprop(iprop(iprop((∃ d, owns (c : Thread nD τ) scM1_0 fullShare d) ∗ (∃ d, owns (c : Thread nD τ) scM1_1 fullShare d)) ∗ rest1 c) ∗ (∃ r, prngReg c r)) := by
  unfold PhiS1
  by_cases hz : n = 0
  · rw [if_pos hz, PhiA1_eq]
  · rw [if_neg hz]
    iintro ⟨⟨⟨HS0, HS1⟩, HR⟩, Hg⟩
    isplitl [HS0 HS1 HR]
    · isplitl [HS0 HS1]
      · isplitl [HS0]
        · iexists _; iexact HS0
        · iexists _; iexact HS1
      iexact HR
    iexact Hg

/-- The body at any point: its residue mod 4 says which case runs; the invariant hands over the accumulators and takes them back. -/
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d)))
    ⊢ wp frame (wpE (defs₀ (F := F)) Variants.none c none) Set.univ (bodyAt1 t) (fun _ =>
      iprop(iprop(iprop(iprop(owns (c : Thread nD τ) scM1_0 fullShare (outsAt1 V c t).2.1 ∗ owns (c : Thread nD τ) scM1_1 fullShare (outsAt1 V c t).2.2) ∗ rest1 c) ∗ (∃ r, prngReg c r))
        ∗ (dat1 V c).owesAt () t.castSucc
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ (dat1 V c).leavesExact 4 t)) := by
  simp only [before1_0, before1_1, before1_2, before1_3]
  unfold outsAt1 step1
  by_cases h0 : t.val % 4 = 0
  · rw [dif_pos h0, Dat.leavesExact_idle (dat1 V c) 4 t (idle1_4 t (by omega)).1 (idle1_4 t (by omega)).2, Phi_cast]
    dsimp only
    iintro ⟨HΦ, Ho, ⟨%d0, H0⟩, ⟨%d1, H1⟩, ⟨%d2, H2⟩, ⟨%d3, H3⟩, ⟨%d4, H4⟩⟩
    ihave HΦ := (Phi_some V c t.val t.isLt.le) $$ HΦ
    icases HΦ with ⟨⟨⟨HS0, HS1⟩, HR⟩, Hg⟩
    iapply ((runA V c t h0).2.2 _ Set.univ _)
    iframe H0 H1 H2 H3 H4 HS0 HS1
    iintro ⟨H0, H1, H2, H3, H4, HS0, HS1⟩
    ihave HS0 := (owns_canon c scM1_0 (runA V c t h0).1 (by sl_kernel_rfl)) $$ HS0
    ihave HS1 := (owns_canon c scM1_1 (runA V c t h0).2.1 (by sl_kernel_rfl)) $$ HS1
    iframe HS0 HS1 HR Hg Ho H0 H1 H2 H3
    iexists _; iexact H4
  · have hz : t.val ≠ 0 := by omega
    rw [dif_neg h0, Phi_cast, PhiS1, if_neg hz]
    iintro ⟨⟨⟨⟨HS0, HS1⟩, HR⟩, Hg⟩, Ho, ⟨%d0, H0⟩, ⟨%d1, H1⟩, ⟨%d2, H2⟩, ⟨%d3, H3⟩, ⟨%d4, H4⟩⟩
    by_cases h1 : t.val % 4 = 3
    · rw [dif_pos h1, show (dat1 V c).leavesExact 4 t = owns (c : Thread nD τ) (ms1_4 t) fullShare (outsAt1 V c t).1 from by
        unfold Dat.leavesExact; rw [live1_4 t h1]; rfl]
      unfold outsAt1 step1; rw [dif_neg h0, dif_pos h1]
      dsimp only
      iapply ((runC V c t h0 h1 (accs1 V c t.val t.isLt.le)).2.2.2 Set.univ _)
      iframe H0 H1 H2 H3 HS0 HS1
      isplitl [H4]; · iexists _; iexact H4
      iintro ⟨H0, H1, H2, H3, H4, HS0, HS1⟩
      ihave H4 := (owns_canon c (ms1_4 t) (runC V c t h0 h1 (accs1 V c t.val t.isLt.le)).1 (by sl_kernel_rfl)) $$ H4
      ihave HS0 := (owns_canon c scM1_0 (runC V c t h0 h1 (accs1 V c t.val t.isLt.le)).2.1 (by sl_kernel_rfl)) $$ HS0
      ihave HS1 := (owns_canon c scM1_1 (runC V c t h0 h1 (accs1 V c t.val t.isLt.le)).2.2.1 (by sl_kernel_rfl)) $$ HS1
      iframe
    · rw [dif_neg h1, Dat.leavesExact_idle (dat1 V c) 4 t (idle1_4 t h1).1 (idle1_4 t h1).2]
      dsimp only
      iapply ((runB V c t h0 h1 (accs1 V c t.val t.isLt.le)).2.2 _ Set.univ _)
      iframe H0 H1 H2 H3 H4 HS0 HS1
      iintro ⟨H0, H1, H2, H3, H4, HS0, HS1⟩
      ihave HS0 := (owns_canon c scM1_0 (runB V c t h0 h1 (accs1 V c t.val t.isLt.le)).1 (by sl_kernel_rfl)) $$ HS0
      ihave HS1 := (owns_canon c scM1_1 (runB V c t h0 h1 (accs1 V c t.val t.isLt.le)).2.1 (by sl_kernel_rfl)) $$ HS1
      iframe HS0 HS1 HR Hg Ho H0 H1 H2 H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ PhiS1 V c 0 (Nat.zero_le _)
  rw [PhiS1, if_pos rfl]

theorem hout1 (c : Dev nD) : (dat1 V c).Φ (Fin.last cfg1.N) ⊢ Pipeline.ΦA spec1 c := by
  rw [PhiA1_eq]; exact Phi_some V c cfg1.N (Nat.le_refl _)

end Cert.Kernel.Hand

end
-- ==== Proof.K.R2.Runs.lean ====
import proofs.«426325_j37211596652926_1_alg».proof.Proof.Gen.Kernel.Launch
import proofs.«426325_j37211596652926_1_alg».proof.Proof.Gen.Kernel.Skeleton
import proofs.«426325_j37211596652926_1_alg».proof.Proof.Gen.Kernel.Points
import proofs.«426325_j37211596652926_1_alg».proof.Proof.Lib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- Window `w`'s block at point `t` of the array `V` holds for it when the region is entered. -/
noncomputable def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The body's first conditional (the accumulator is zeroed): the contraction coordinate is 0, -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- and its second (the scaled accumulator is stored to the output block): it is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem idle2_3 : ∀ t : Fin cfg2.N, cfg2.idle 3 (grid2.coords t) = true ↔ ¬t.val % 4 = 3 := by decide +kernel

/-- The memref the body is handed for window `w` at point `t`: a whole buffer. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)
/-- The accumulator. -/
abbrev scM2_0 : Memref sig .tc .vmem S2048x1024 .f32 := Memref.whole cc2_scratch0

/-- What the region holds beside the accumulator: the other scoped buffers unopened, and the generator register. -/
def rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [bigSepL_singleton, scM2_0, owns_whole]; try rfl

/-- The launch hands the region the accumulator at some contents beside the rest, -/
theorem PhiA2_in (c : Dev nD) : (Pipeline.ΦA spec2 c : sProp 𝕄) ⊢ iprop(∃ d, owns (c : Thread nD τ) scM2_0 fullShare d ∗ rest2 c) := by
  rw [PhiA2_eq]; unfold rest2
  iintro ⟨⟨⟨%d, HS⟩, Hr⟩, Hg⟩
  iexists d; iframe

/-- and takes it back at any. -/
theorem PhiA2_out (c : Dev nD) (d : Vec F S2048x1024 .f32) : iprop(owns (c : Thread nD τ) scM2_0 fullShare d ∗ rest2 c) ⊢ (Pipeline.ΦA spec2 c : sProp 𝕄) := by
  rw [PhiA2_eq]; unfold rest2
  iintro ⟨HS, Hr, Hg⟩
  iframe Hr Hg
  iexists d; iexact HS

variable (V : (c : Dev nD) → (b : Ref sig .tc) → Buf (Elt F) ((c : Thread nD τ).loc b)) (c : Dev nD) (t : Fin cfg2.N)

/-- The three inputs' memrefs at point `t`, at their blocks. -/
def ins2 : sProp 𝕄 := iprop(owns (c : Thread nD τ) (ms2_0 t) fullShare (iblk2 V c 0 t) ∗ owns (c : Thread nD τ) (ms2_1 t) fullShare (iblk2 V c 1 t) ∗ owns (c : Thread nD τ) (ms2_2 t) fullShare (iblk2 V c 2 t))

theorem ins2_intro : iprop(((ms2_0 t).view.loc (c : Thread nD τ) ↦[(ms2_0 t).view.set]{fullShare} (hs2_0 t).unread (iblk2 V c 0 t)) ∗ ((ms2_1 t).view.loc (c : Thread nD τ) ↦[(ms2_1 t).view.set]{fullShare} (hs2_1 t).unread (iblk2 V c 1 t)) ∗ ((ms2_2 t).view.loc (c : Thread nD τ) ↦[(ms2_2 t).view.set]{fullShare} (hs2_2 t).unread (iblk2 V c 2 t))) ⊢ (ins2 V c t : sProp 𝕄) := by
  unfold ins2
  iintro ⟨H0, H1, H2⟩
  isplitl [H0]; · iapply owns_unread (c : Thread nD τ) (hs2_0 t); iexact H0
  isplitl [H1]; · iapply owns_unread (c : Thread nD τ) (hs2_1 t); iexact H1
  iapply owns_unread (c : Thread nD τ) (hs2_2 t); iexact H2

/-- The body's triple at point `t`: the inputs at their blocks pass through, `P` becomes `Q`. -/
def Triple2 (P Q : sProp 𝕄) : Prop := ∀ (E : Set ℕ) (K : PUnit → sProp 𝕄),
  iprop(owns (c : Thread nD τ) (ms2_0 t) fullShare (iblk2 V c 0 t) ∗ owns (c : Thread nD τ) (ms2_1 t) fullShare (iblk2 V c 1 t) ∗ owns (c : Thread nD τ) (ms2_2 t) fullShare (iblk2 V c 2 t) ∗ P ∗ (iprop(ins2 V c t ∗ Q) -∗ K ⟨⟩))
    ⊢ wp frame (wpE (defs₀ (F := F)) Variants.none c none) E (bodyAt2 t) K

end Cert.Kernel.Hand

end
-- ==== Proof.K.R2.RunA.lean ====
import proofs.«426325_j37211596652926_1_alg».proof.Proof.K.R2.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N)

/-- The first contraction step: the accumulator, at anything, is zeroed and updated. Its stores, with the triple. -/
def runA2 (h0 : t.val % 4 = 0) :
    { LS0 : List (View.Piece (Elt F) S2048x1024 .f32) // Triple2 V c t iprop(∃ d, owns (c : Thread nD τ) scM2_0 fullShare d) (ownsTiled (c : Thread nD τ) scM2_0 LS0) } := by
  refine ⟨?_, fun E K => ?run⟩
  case run =>
    have hc0 := (hcond2_0 t).mpr h0
    have hc1 : ¬cond2_1 (grid2.coords t) := fun h => by have := (hcond2_1 t).mp h; omega
    unfold bodyAt2
    simp only [cc2__postscale_matmul_kernel_eq_skeleton]; unfold cc2__postscale_matmul_kernel_skel
    unfold owns
    iintro ⟨⟨%f0, %hf0, H0⟩, ⟨%f1, %hf1, H1⟩, ⟨%f2, %hf2, H2⟩, ⟨%ds0, %fs0, -, HS0⟩, Hk⟩
    obtain rfl := (hs2_0 t).eq_unread hf0; obtain rfl := (hs2_1 t).eq_unread hf1; obtain rfl := (hs2_2 t).eq_unread hf2
    sl_exec (disch := first | exact hc0 | exact hc1)
    sl_step
    iapply Hk
    isplitl [H0 H1 H2]
    · iapply ins2_intro V c t; iframe
    unfold ownsTiled; isplitr; swap; · iexists _; iexact HS0
    ipureintro; sl_kernel_rfl

end Cert.Kernel.Hand

end
-- ==== Proof.K.R2.RunB.lean ====
import proofs.«426325_j37211596652926_1_alg».proof.Proof.K.R2.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N) (xs0 : Vec F S2048x1024 .f32)

/-- A middle contraction step: the accumulator, at `xs0`, is updated. Its stores, with the triple. -/
def runB2 (h0 : ¬t.val % 4 = 0) (h1 : ¬t.val % 4 = 3) :
    { LS0 : List (View.Piece (Elt F) S2048x1024 .f32) // Triple2 V c t (owns (c : Thread nD τ) scM2_0 fullShare xs0) (ownsTiled (c : Thread nD τ) scM2_0 LS0) } := by
  refine ⟨?_, fun E K => ?run⟩
  case run =>
    have hc0 := mt (hcond2_0 t).mp h0
    have hc1 := mt (hcond2_1 t).mp h1
    unfold bodyAt2
    simp only [cc2__postscale_matmul_kernel_eq_skeleton]; unfold cc2__postscale_matmul_kernel_skel
    unfold owns
    iintro ⟨⟨%f0, %hf0, H0⟩, ⟨%f1, %hf1, H1⟩, ⟨%f2, %hf2, H2⟩, ⟨%fs0, %hfs0, HS0⟩, Hk⟩
    obtain rfl := (hs2_0 t).eq_unread hf0; obtain rfl := (hs2_1 t).eq_unread hf1; obtain rfl := (hs2_2 t).eq_unread hf2; obtain rfl := (Memref.isWhole_whole cc2_scratch0).eq_unread hfs0
    sl_exec (disch := first | exact hc0 | exact hc1)
    sl_step
    iapply Hk
    isplitl [H0 H1 H2]
    · iapply ins2_intro V c t; iframe
    unfold ownsTiled; isplitr; swap; · iexists _; iexact HS0
    ipureintro; sl_kernel_rfl

end Cert.Kernel.Hand

end
-- ==== Proof.K.R2.RunC.lean ====
import proofs.«426325_j37211596652926_1_alg».proof.Proof.K.R2.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N) (xs0 : Vec F S2048x1024 .f32)

/-- The last contraction step: the accumulator, at `xs0`, is updated, and stored, scaled, over the output block. Both buffers' stores, with the triple. -/
def runC2 (h1 : t.val % 4 = 3) :
    Σ' L3 : List (View.Piece (Elt F) S2048x1024 .f32), { LS0 : List (View.Piece (Elt F) S2048x1024 .f32) // Triple2 V c t iprop((∃ d, owns (c : Thread nD τ) (ms2_3 t) fullShare d) ∗ owns (c : Thread nD τ) scM2_0 fullShare xs0) iprop(ownsTiled (c : Thread nD τ) (ms2_3 t) L3 ∗ ownsTiled (c : Thread nD τ) scM2_0 LS0) } := by
  refine ⟨?_, ?_, fun E K => ?run⟩
  case run =>
    have hc0 : ¬cond2_0 (grid2.coords t) := fun h => by have := (hcond2_0 t).mp h; omega
    have hc1 := (hcond2_1 t).mpr h1
    unfold bodyAt2
    simp only [cc2__postscale_matmul_kernel_eq_skeleton]; unfold cc2__postscale_matmul_kernel_skel
    unfold owns
    iintro ⟨⟨%f0, %hf0, H0⟩, ⟨%f1, %hf1, H1⟩, ⟨%f2, %hf2, H2⟩, ⟨⟨%d3, %f3, -, H3⟩, ⟨%fs0, %hfs0, HS0⟩⟩, Hk⟩
    obtain rfl := (hs2_0 t).eq_unread hf0; obtain rfl := (hs2_1 t).eq_unread hf1; obtain rfl := (hs2_2 t).eq_unread hf2; obtain rfl := (Memref.isWhole_whole cc2_scratch0).eq_unread hfs0
    sl_exec (disch := first | exact hc0 | exact hc1)
    sl_step
    iapply Hk
    isplitl [H0 H1 H2]
    · iapply ins2_intro V c t; iframe
    isplitl [H3]
    · unfold ownsTiled; isplitr; swap; · iexists _; iexact H3
      ipureintro; sl_kernel_rfl
    unfold ownsTiled; isplitr; swap; · iexists _; iexact HS0
    ipureintro; sl_kernel_rfl

end Cert.Kernel.Hand

end
-- ==== Proof.K.R2.Frame.lean ====
import proofs.«426325_j37211596652926_1_alg».proof.Proof.K.R2.RunA
import proofs.«426325_j37211596652926_1_alg».proof.Proof.K.R2.RunB
import proofs.«426325_j37211596652926_1_alg».proof.Proof.K.R2.RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- What the accumulator holds before point `n`: what the case of point `n - 1` left there, over what that point found (before the first point, nothing that is read). -/
def accAt2 : (n : ℕ) → n ≤ cfg2.N → Vec F S2048x1024 .f32
  | 0, _ => View.canon []
  | n + 1, hn =>
    if h0 : n % 4 = 0 then View.canon (runA2 V c ⟨n, hn⟩ h0).1
    else if h1 : n % 4 = 3 then View.canon (runC2 V c ⟨n, hn⟩ (accAt2 n (Nat.le_of_succ_le hn)) h1).2.1
    else View.canon (runB2 V c ⟨n, hn⟩ (accAt2 n (Nat.le_of_succ_le hn)) h0 h1).1

variable (t : Fin cfg2.N)

theorem accAt2_A (h0 : t.val % 4 = 0) : accAt2 V c (t.val + 1) t.isLt = View.canon (runA2 V c t h0).1 := dif_pos h0
theorem accAt2_B (h0 : ¬t.val % 4 = 0) (h1 : ¬t.val % 4 = 3) :
    accAt2 V c (t.val + 1) t.isLt = View.canon (runB2 V c t (accAt2 V c t.val t.isLt.le) h0 h1).1 := (dif_neg h0).trans (dif_neg h1)
theorem accAt2_C (h0 : ¬t.val % 4 = 0) (h1 : t.val % 4 = 3) :
    accAt2 V c (t.val + 1) t.isLt = View.canon (runC2 V c t (accAt2 V c t.val t.isLt.le) h1).2.1 := (dif_neg h0).trans (dif_pos h1)

/-- What the output block holds after point `t`: the last contraction step's store (elsewhere nothing that is read). -/
def outAt2 : Vec F S2048x1024 .f32 :=
  if h1 : t.val % 4 = 3 then View.canon (runC2 V c t (accAt2 V c t.val t.isLt.le) h1).1 else View.canon []

/-- The region invariant before point `n`: the accumulator at what the point before left in it (at anything before the first), beside the rest. -/
def Phi2 (n : ℕ) (hn : n ≤ cfg2.N) : sProp 𝕄 :=
  iprop(∃ d, ⌜n ≠ 0 → d = accAt2 V c n hn⌝ ∗ owns (c : Thread nD τ) scM2_0 fullShare d ∗ rest2 c)

/-- The region's proof data: the arrays as it finds them; each input's buffer left at its block, the output's at `outAt2`. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ n := Phi2 V c n.val (Nat.le_of_lt_succ n.isLt)
  q _ := fullShare
  owed _ := 0

theorem A_eq2 (w : Fin cfg2.W) : (dat2 V c).A w = V c (Pipeline.arrRef spec2 w) := rfl

/-- What the body finds in each input's buffer at a point is the input's block there. -/
theorem before2_0 (d) : (dat2 V c).before 0 t d = iblk2 V c 0 t :=
  ((dat2 V c).before_in_eq_fetched 0 rfl (fun _ => rfl) (fun _ _ _ => rfl) (fun _ => rfl) t d).trans rfl
theorem before2_1 (d) : (dat2 V c).before 1 t d = iblk2 V c 1 t :=
  ((dat2 V c).before_in_eq_fetched 1 rfl (fun _ => rfl) (fun _ _ _ => rfl) (fun _ => rfl) t d).trans rfl
theorem before2_2 (d) : (dat2 V c).before 2 t d = iblk2 V c 2 t :=
  ((dat2 V c).before_in_eq_fetched 2 rfl (fun _ => rfl) (fun _ _ _ => rfl) (fun _ => rfl) t d).trans rfl

/-- The body at any point: the case `t % 4` selects runs on the input blocks and the accumulator as the invariant holds it, and leaves the next point's invariant; the output block changes at the last contraction step only. -/
theorem sound_body2 :
    iprop(Phi2 V c t.val t.isLt.le ∗ (dat2 V c).owesAt () t.castSucc
      ∗ (∃ d, owns (c : Thread nD τ) (ms2_0 t) fullShare ((dat2 V c).before 0 t d)) ∗ (∃ d, owns (c : Thread nD τ) (ms2_1 t) fullShare ((dat2 V c).before 1 t d))
      ∗ (∃ d, owns (c : Thread nD τ) (ms2_2 t) fullShare ((dat2 V c).before 2 t d)) ∗ (∃ d, owns (c : Thread nD τ) (ms2_3 t) fullShare ((dat2 V c).before 3 t d)))
    ⊢ wp frame (wpE (defs₀ (F := F)) Variants.none c none) Set.univ (bodyAt2 t) fun _ =>
      iprop(Phi2 V c (t.val + 1) t.isLt ∗ (dat2 V c).owesAt () t.castSucc
        ∗ owns (c : Thread nD τ) (ms2_0 t) fullShare (iblk2 V c 0 t) ∗ owns (c : Thread nD τ) (ms2_1 t) fullShare (iblk2 V c 1 t) ∗ owns (c : Thread nD τ) (ms2_2 t) fullShare (iblk2 V c 2 t) ∗ (dat2 V c).leavesExact 3 t) := by
  simp only [before2_0, before2_1, before2_2]
  unfold Phi2 bodyAt2
  iintro ⟨⟨%d, %hd, HS, HR⟩, Ho, ⟨%d0, H0⟩, ⟨%d1, H1⟩, ⟨%d2, H2⟩, ⟨%d3, H3⟩⟩
  by_cases h1 : t.val % 4 = 3
  · have h0 : ¬t.val % 4 = 0 := by omega
    obtain rfl := hd (by omega)
    rw [accAt2_C V c t h0 h1, show (dat2 V c).leavesExact 3 t = owns (c : Thread nD τ) (ms2_3 t) fullShare (View.canon (runC2 V c t (accAt2 V c t.val t.isLt.le) h1).1) from by
      unfold Dat.leavesExact; rw [Bool.eq_false_iff.mpr (mt (idle2_3 t).mp (not_not_intro h1))]
      exact congrArg (owns (c : Thread nD τ) (ms2_3 t) fullShare) (dif_pos h1)]
    iapply (runC2 V c t _ h1).2.2 Set.univ _
    iframe H0 H1 H2 HS
    isplitl [H3]; · iexists _; iexact H3
    iintro ⟨Hin, H3, HS⟩
    unfold ins2; icases Hin with ⟨H0, H1, H2⟩
    isplitl [HS HR]
    · iexists _; isplitr; · ipureintro; exact fun _ => rfl
      isplitl [HS]; · iapply ownsTiled_owns; iexact HS
      iexact HR
    iframe Ho H0 H1 H2
    iapply ownsTiled_owns; iexact H3
  · rw [Dat.leavesExact_idle (dat2 V c) 3 t ((idle2_3 t).mpr h1) (Bool.eq_false_iff.mpr (mt (flush2_3 t).mp h1))]
    by_cases h0 : t.val % 4 = 0
    · rw [accAt2_A V c t h0]
      iapply (runA2 V c t h0).2 Set.univ _
      iframe H0 H1 H2
      isplitl [HS]; · iexists d; iexact HS
      iintro ⟨Hin, HS⟩
      unfold ins2; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3
    · obtain rfl := hd (by omega)
      rw [accAt2_B V c t h0 h1]
      iapply (runB2 V c t _ h0 h1).2 Set.univ _
      iframe H0 H1 H2 HS
      iintro ⟨Hin, HS⟩
      unfold ins2; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := by
  refine (PhiA2_in c).trans ?_
  show _ ⊢ Phi2 V c 0 (Nat.zero_le _)
  unfold Phi2
  iintro ⟨%d, H⟩
  iexists d; isplitr; · ipureintro; exact fun h => absurd rfl h
  iexact H

theorem hout2 : (dat2 V c).Φ (Fin.last cfg2.N) ⊢ Pipeline.ΦA spec2 c := by
  show Phi2 V c _ _ ⊢ _
  unfold Phi2
  iintro ⟨%d, -, H⟩
  iapply PhiA2_out c d; iexact H

end Cert.Kernel.Hand

end
-- ==== Proof.K.Run.lean ====
import proofs.«426325_j37211596652926_1_alg».proof.Proof.K.R0.Frame
import proofs.«426325_j37211596652926_1_alg».proof.Proof.K.R1.Frame
import proofs.«426325_j37211596652926_1_alg».proof.Proof.K.R2.Frame
import proofs.«426325_j37211596652926_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vals : Type := Dev nD → Valuation τ sig (Elt F)
abbrev atTc (V : Vals (F := F)) : (c : Dev nD) → (b : Ref sig .tc) → Buf (Elt F) ((c : Thread nD τ).loc b) := fun c b => V c b

section Region

variable {cfg : Cfg sig Λ₀} (V : Vals (F := F)) (dat : (c : Dev nD) → Dat τ (Elt F) Unit ℕ (UR sig nD τ) ℕ cfg c) (c : Dev nD)

/-- What a region entered at `V` leaves: its arrays as after its last grid point, every other buffer as found. -/
def left : Valuation τ sig (Elt F) :=
  Pipeline.withArrays cfg.spec c (V c) fun w => (dat c).arrAt w cfg.N
theorem left_arr (hinj : Function.Injective (Pipeline.arrRef cfg.spec)) (w : Fin cfg.W) :
    left V dat c (Proc.devRef .tc (Pipeline.arrRef cfg.spec w)) = (dat c).arrAt w cfg.N :=
  Pipeline.withArrays_arr _ hinj c _ _ w
theorem left_rest (b : Ref sig .tc) (hb : b ∉ Finset.univ.image (Pipeline.arrRef cfg.spec)) :
    left V dat c (Proc.devRef .tc b) = V c (Proc.devRef .tc b) :=
  Pipeline.withArrays_of_ne _ c _ _ b fun w e => hb (Finset.mem_image.mpr ⟨w, Finset.mem_univ _, e⟩)

/-- Every window on the buffer `b` is an input window. -/
abbrev InOnly (cfg : Cfg sig Λ₀) (b : Ref sig .tc) : Prop :=
  ∀ w, Pipeline.arrRef cfg.spec w = b → (cfg.win w).isOut = false

/-- An input window's array has the same contents after every grid point, so a buffer with input windows only is left as found. -/
theorem left_in (hinj : Function.Injective (Pipeline.arrRef cfg.spec))
    (hA : ∀ w, (dat c).A w = V c (Proc.devRef .tc (Pipeline.arrRef cfg.spec w))) (b : Ref sig .tc) (hb : InOnly cfg b) :
    left V dat c (Proc.devRef .tc b) = V c (Proc.devRef .tc b) := by
  by_cases h : ∃ w, Pipeline.arrRef cfg.spec w = b
  · obtain ⟨w, rfl⟩ := h
    exact (left_arr V dat c hinj w).trans (((dat c).arrAt_in w (hb w rfl) _).trans (hA w))
  · exact Pipeline.withArrays_of_ne _ c _ _ b fun w e => h ⟨w, e⟩

end Region

abbrev W0 : Vals (F := F) := fun c b => (s₀ m ρ).mem ((c : Dev nD), b)
abbrev W1 : Vals (F := F) := fun c => StableHlo.after hostOps0 (W0 m ρ c)
abbrev In0 := atTc (W1 m ρ)
abbrev W2 : Vals (F := F) := left (W1 m ρ) (dat0 (In0 m ρ))
abbrev W3 : Vals (F := F) := fun c => StableHlo.after hostOps1 (W2 m ρ c)
abbrev W4 : Vals (F := F) := fun c => StableHlo.after hostOps1_1 (W3 m ρ c)
abbrev In1 := atTc (W4 m ρ)
abbrev W5 : Vals (F := F) := left (W4 m ρ) (dat1 (In1 m ρ))
abbrev W6 : Vals (F := F) := fun c => StableHlo.after hostOps2 (W5 m ρ c)
abbrev In2 := atTc (W6 m ρ)
abbrev W7 : Vals (F := F) := left (W6 m ρ) (dat2 (In2 m ρ))

abbrev admT : (p : Fin 3) → (pcfgs (F := F) p).Adm := fun p => (cfgs p).toPCfg_adm
abbrev pcfg : Fin 3 → Cfg sig Λ₀ := Pipeline.pin (pcfgs (F := F)) admT
/-- Region `p`'s proof data, read at the valuation the fold reaches before that region. -/
def pdats : (p : Fin 3) → (c : Dev nD) → Dat τ (Elt F) Unit ℕ (UR sig nD τ) ℕ (pcfg (F := F) p) c
  | ⟨0, _⟩ => dat0 (In0 m ρ)
  | ⟨1, _⟩ => dat1 (In1 m ρ)
  | ⟨2, _⟩ => dat2 (In2 m ρ)
abbrev 𝒱₀ : Variants := Variants.none
abbrev L : GSem nD τ sig → Finset Unit := fun _ => ∅
abbrev lv : GSem nD τ sig → Unit → ℕ := fun _ _ => 0
/-- What every thread state between two items carries beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Vals (F := F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- The segment of a region whose proof data holds every array whole and owes nothing: entered at `V`, left at `left V`. -/
def reg (p : Fin 3) (launch : Pipeline.LaunchFacts (nD := nD) (τ := τ) cfgs p) (V : Vals (F := F))
    (hA : ∀ c w, (pdats m ρ p c).A w = atTc V c (Pipeline.arrRef (pcfg (F := F) p).spec w))
    (hq : ∀ c w, (pdats m ρ p c).q w = fullShare) (howed : ∀ c t, (pdats m ρ p c).owed t = 0)
    (hrec : ∀ c x, x ∈ (pdats m ρ p c).recorded 0)
    (hbody : ∀ c, BodyObligation (pdats m ρ p c) (defs₀ (F := F)) 𝒱₀ () Set.univ)
    (hin : ∀ c, Pipeline.ΦA (pcfg (F := F) p).spec c ⊢ (pdats m ρ p c).Φ 0)
    (hout : ∀ c, (pdats m ρ p c).Φ (Fin.last (pcfg (F := F) p).N) ⊢ Pipeline.ΦA (pcfg (F := F) p).spec c) :
    Pipeline.RegionSeg (pcfgs (F := F)) admT (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (left V (pdats m ρ p) c) ∗ R c)
  X c := iprop(∃ r, prngReg c r)
  Y c := iprop(∃ r, prngReg c r)
  Z c := Pipeline.unscopedRest (Ix := Unit) (Name := ℕ) (U := UR sig nD τ) (Lvl := ℕ) (pcfg (F := F) p).spec c (atTc V c)
  hentry c := by
    rw [Pipeline.ownSems0_none]
    have hsplit := Pipeline.arrays_of_unscopedBufs (p := p) (pcfgs (F := F)) admT (pdats m ρ) launch.win launch.arr_whole c
      ((pdats m ρ p c).share_full (hq c)) (atTc V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admT (Ix := Unit) (Name := ℕ) (U := UR sig nD τ) (Lvl := ℕ)
      launch.win launch.arr_whole c (pdats m ρ) ((pdats m ρ p c).share_full (hq c))
      (atTc V c) (atTc (left V (pdats m ρ p)) c) ((pdats m ρ p c).arrAt · (pcfg (F := F) p).N)
      (fun w => (left_arr V (pdats m ρ p) c launch.win.arr_inj w).symm) (left_rest V (pdats m ρ p) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := reg m ρ 0 launch0 (W1 m ρ) (fun _ _ => rfl) (fun _ _ => rfl) (fun _ _ => rfl) (fun _ _ => trivial)
  (body_obligation0 (In0 m ρ)) (hin0 (In0 m ρ)) (hout0 (In0 m ρ))
def reg1 := reg m ρ 1 launch1 (W4 m ρ) (fun _ _ => rfl) (fun _ _ => rfl) (fun _ _ => rfl) (fun _ _ => trivial)
  (body_obligation1 (In1 m ρ)) (hin1 (In1 m ρ)) (hout1 (In1 m ρ))
def reg2 := reg m ρ 2 launch2 (W6 m ρ) (fun _ _ => rfl) (fun _ _ => rfl) (fun _ _ => rfl) (fun _ _ => trivial)
  (body_obligation2 (In2 m ρ)) (hin2 (In2 m ρ)) (hout2 (In2 m ρ))

abbrev items : List (Pipeline.Seg (pcfgs (F := F)) admT (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .region (reg2 m ρ) ]
theorem main_run (c : Dev nD) : main (F := F) c = Pipeline.Seg.run (items m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admT (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

section Kept

variable (c : Dev nD) (b : Ref sig .tc)

/-- `Kept k b`: no item of the program before boundary `k` changes the buffer `b`. -/
abbrev Kept1 : Prop := b ∉ hostOps0_W
abbrev Kept2 : Prop := InOnly cfg0 b ∧ Kept1 b
abbrev Kept3 : Prop := b ∉ hostOps1_W ∧ Kept2 b
abbrev Kept4 : Prop := b ∉ hostOps1_1_W ∧ Kept3 b
abbrev Kept5 : Prop := InOnly cfg1 b ∧ Kept4 b
abbrev Kept6 : Prop := b ∉ hostOps2_W ∧ Kept5 b
abbrev Kept7 : Prop := InOnly cfg2 b ∧ Kept6 b

/-- A buffer that no item so far changes still holds its launch contents. -/
theorem W1_kept (h : Kept1 b) : W1 m ρ c (Proc.devRef .tc b) = m ((c : Thread nD τ).loc b) :=
  StableHlo.after_of_writes_sub hostOps0 _ hostOps0_writes h
theorem W2_kept (h : Kept2 b) : W2 m ρ c (Proc.devRef .tc b) = m ((c : Thread nD τ).loc b) :=
  (left_in (W1 m ρ) (dat0 (In0 m ρ)) c launch0.win.arr_inj (A_eq0 _ c) b h.1).trans (W1_kept m ρ c b h.2)
theorem W3_kept (h : Kept3 b) : W3 m ρ c (Proc.devRef .tc b) = m ((c : Thread nD τ).loc b) :=
  (StableHlo.after_of_writes_sub hostOps1 _ hostOps1_writes h.1).trans (W2_kept m ρ c b h.2)
theorem W4_kept (h : Kept4 b) : W4 m ρ c (Proc.devRef .tc b) = m ((c : Thread nD τ).loc b) :=
  (StableHlo.after_of_writes_sub hostOps1_1 _ hostOps1_1_writes h.1).trans (W3_kept m ρ c b h.2)
theorem W5_kept (h : Kept5 b) : W5 m ρ c (Proc.devRef .tc b) = m ((c : Thread nD τ).loc b) :=
  (left_in (W4 m ρ) (dat1 (In1 m ρ)) c launch1.win.arr_inj (A_eq1 _ c) b h.1).trans (W4_kept m ρ c b h.2)
theorem W6_kept (h : Kept6 b) : W6 m ρ c (Proc.devRef .tc b) = m ((c : Thread nD τ).loc b) :=
  (StableHlo.after_of_writes_sub hostOps2 _ hostOps2_writes h.1).trans (W5_kept m ρ c b h.2)
theorem W7_kept (h : Kept7 b) : W7 m ρ c (Proc.devRef .tc b) = m ((c : Thread nD τ).loc b) :=
  (left_in (W6 m ρ) (dat2 (In2 m ρ)) c launch2.win.arr_inj (A_eq2 _ c) b h.1).trans (W6_kept m ρ c b h.2)

/-- The host lines between two regions do not write the earlier region's output array. -/
theorem W4_main_v1 : W4 m ρ c (Proc.devRef .tc main_v1) = (dat0 (In0 m ρ) c).arrAt 3 cfg0.N :=
  (StableHlo.after_of_writes_sub hostOps1_1 _ hostOps1_1_writes (by decide)).trans
    ((StableHlo.after_of_writes_sub hostOps1 _ hostOps1_writes (by decide)).trans (left_arr _ _ c launch0.win.arr_inj 3))
theorem W6_main_v7 : W6 m ρ c (Proc.devRef .tc main_v7) = (dat1 (In1 m ρ) c).arrAt 4 cfg1.N :=
  (StableHlo.after_of_writes_sub hostOps2 _ hostOps2_writes (by decide)).trans (left_arr _ _ c launch1.win.arr_inj 4)
theorem W7_main_v11 : W7 m ρ c (Proc.devRef .tc main_v11) = (dat2 (In2 m ρ) c).arrAt 3 cfg2.N :=
  left_arr _ _ c launch2.win.arr_inj 3

end Kept

/-- The run, read at the result buffer and at the eleven arguments. -/
theorem value_all : θ_run defs (onTc (τ := τ) (main (F := F))) ⟨m, fun _ => 0, ρ⟩ (fun r => ∀ c : Dev nD,
      r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v11 (by decide)),
     (h c _ (mem_uc main_arg0 (by decide))).trans (W7_kept m ρ c main_arg0 (by decide)),
     (h c _ (mem_uc main_arg1 (by decide))).trans (W7_kept m ρ c main_arg1 (by decide)),
     (h c _ (mem_uc main_arg2 (by decide))).trans (W7_kept m ρ c main_arg2 (by decide)),
     (h c _ (mem_uc main_arg3 (by decide))).trans (W7_kept m ρ c main_arg3 (by decide)),
     (h c _ (mem_uc main_arg4 (by decide))).trans (W7_kept m ρ c main_arg4 (by decide)),
     (h c _ (mem_uc main_arg5 (by decide))).trans (W7_kept m ρ c main_arg5 (by decide)),
     (h c _ (mem_uc main_arg6 (by decide))).trans (W7_kept m ρ c main_arg6 (by decide)),
     (h c _ (mem_uc main_arg7 (by decide))).trans (W7_kept m ρ c main_arg7 (by decide)),
     (h c _ (mem_uc main_arg8 (by decide))).trans (W7_kept m ρ c main_arg8 (by decide)),
     (h c _ (mem_uc main_arg9 (by decide))).trans (W7_kept m ρ c main_arg9 (by decide)),
     (h c _ (mem_uc main_arg10 (by decide))).trans (W7_kept m ρ c main_arg10 (by decide))⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (value_all m ρ)

end Cert.Kernel.Hand

end
-- ==== Proof.R0.Runs.lean ====
import proofs.«426325_j37211596652926_1_alg».proof.Proof.Gen.KernelIdeal.Launch
import proofs.«426325_j37211596652926_1_alg».proof.Proof.Gen.KernelIdeal.Skeleton
import proofs.«426325_j37211596652926_1_alg».proof.Proof.Gen.KernelIdeal.Points
import proofs.«426325_j37211596652926_1_alg».proof.Proof.Lib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- Window `w`'s block at point `t` of the array `V` holds for it when the region is entered. -/
noncomputable def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The body's first conditional (the accumulator is zeroed): the contraction coordinate is 0, -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- and its second (the accumulator is stored to the output block): it is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem idle0_3 : ∀ t : Fin cfg0.N, cfg0.idle 3 (grid0.coords t) = true ↔ ¬t.val % 4 = 3 := by decide +kernel

/-- The memref the body is handed for window `w` at point `t`: a whole buffer. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator. -/
abbrev scM0_0 : Memref sig .tc .vmem S2048x1024 .f32 := Memref.whole cc0_scratch0

/-- What the region holds beside the accumulator: the other scoped buffers unopened, and the generator register. -/
def rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0_0, owns_whole]; try rfl

/-- The launch hands the region the accumulator at some contents beside the rest, -/
theorem PhiA0_in (c : Dev nD) : (Pipeline.ΦA spec0 c : sProp 𝕄) ⊢ iprop(∃ d, owns (c : Thread nD τ) scM0_0 fullShare d ∗ rest0 c) := by
  rw [PhiA0_eq]; unfold rest0
  iintro ⟨⟨⟨%d, HS⟩, Hr⟩, Hg⟩
  iexists d; iframe

/-- and takes it back at any. -/
theorem PhiA0_out (c : Dev nD) (d : Vec F S2048x1024 .f32) : iprop(owns (c : Thread nD τ) scM0_0 fullShare d ∗ rest0 c) ⊢ (Pipeline.ΦA spec0 c : sProp 𝕄) := by
  rw [PhiA0_eq]; unfold rest0
  iintro ⟨HS, Hr, Hg⟩
  iframe Hr Hg
  iexists d; iexact HS

variable (V : (c : Dev nD) → (b : Ref sig .tc) → Buf (Elt F) ((c : Thread nD τ).loc b)) (c : Dev nD) (t : Fin cfg0.N)

/-- The three inputs' memrefs at point `t`, at their blocks. -/
def ins0 : sProp 𝕄 := iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t))

theorem ins0_intro : iprop(((ms0_0 t).view.loc (c : Thread nD τ) ↦[(ms0_0 t).view.set]{fullShare} (hs0_0 t).unread (iblk0 V c 0 t)) ∗ ((ms0_1 t).view.loc (c : Thread nD τ) ↦[(ms0_1 t).view.set]{fullShare} (hs0_1 t).unread (iblk0 V c 1 t)) ∗ ((ms0_2 t).view.loc (c : Thread nD τ) ↦[(ms0_2 t).view.set]{fullShare} (hs0_2 t).unread (iblk0 V c 2 t))) ⊢ (ins0 V c t : sProp 𝕄) := by
  unfold ins0
  iintro ⟨H0, H1, H2⟩
  isplitl [H0]; · iapply owns_unread (c : Thread nD τ) (hs0_0 t); iexact H0
  isplitl [H1]; · iapply owns_unread (c : Thread nD τ) (hs0_1 t); iexact H1
  iapply owns_unread (c : Thread nD τ) (hs0_2 t); iexact H2

/-- The body's triple at point `t`: the inputs at their blocks pass through, `P` becomes `Q`. -/
def Triple0 (P Q : sProp 𝕄) : Prop := ∀ (E : Set ℕ) (K : PUnit → sProp 𝕄),
  iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ P ∗ (iprop(ins0 V c t ∗ Q) -∗ K ⟨⟩))
    ⊢ wp frame (wpE (defs₀ (F := F)) Variants.none c none) E (bodyAt0 t) K

end Cert.KernelIdeal.Hand

end
-- ==== Proof.R0.RunA.lean ====
import proofs.«426325_j37211596652926_1_alg».proof.Proof.R0.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

/-- The first contraction step: the accumulator, at anything, is zeroed and updated. Its stores, with the triple. -/
def runA0 (h0 : t.val % 4 = 0) :
    { LS0 : List (View.Piece (Elt F) S2048x1024 .f32) // Triple0 V c t iprop(∃ d, owns (c : Thread nD τ) scM0_0 fullShare d) (ownsTiled (c : Thread nD τ) scM0_0 LS0) } := by
  refine ⟨?_, fun E K => ?run⟩
  case run =>
    have hc0 := (hcond0_0 t).mpr h0
    have hc1 : ¬cond0_1 (grid0.coords t) := fun h => by have := (hcond0_1 t).mp h; omega
    unfold bodyAt0
    simp only [cc0__prescale_matmul_kernel_eq_skeleton]; unfold cc0__prescale_matmul_kernel_skel
    unfold owns
    iintro ⟨⟨%f0, %hf0, H0⟩, ⟨%f1, %hf1, H1⟩, ⟨%f2, %hf2, H2⟩, ⟨%ds0, %fs0, -, HS0⟩, Hk⟩
    obtain rfl := (hs0_0 t).eq_unread hf0; obtain rfl := (hs0_1 t).eq_unread hf1; obtain rfl := (hs0_2 t).eq_unread hf2
    sl_exec (disch := first | exact hc0 | exact hc1)
    sl_step
    iapply Hk
    isplitl [H0 H1 H2]
    · iapply ins0_intro V c t; iframe
    unfold ownsTiled; isplitr; swap; · iexists _; iexact HS0
    ipureintro; sl_kernel_rfl

end Cert.KernelIdeal.Hand

end
-- ==== Proof.R0.RunB.lean ====
import proofs.«426325_j37211596652926_1_alg».proof.Proof.R0.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N) (xs0 : Vec F S2048x1024 .f32)

/-- A middle contraction step: the accumulator, at `xs0`, is updated. Its stores, with the triple. -/
def runB0 (h0 : ¬t.val % 4 = 0) (h1 : ¬t.val % 4 = 3) :
    { LS0 : List (View.Piece (Elt F) S2048x1024 .f32) // Triple0 V c t (owns (c : Thread nD τ) scM0_0 fullShare xs0) (ownsTiled (c : Thread nD τ) scM0_0 LS0) } := by
  refine ⟨?_, fun E K => ?run⟩
  case run =>
    have hc0 := mt (hcond0_0 t).mp h0
    have hc1 := mt (hcond0_1 t).mp h1
    unfold bodyAt0
    simp only [cc0__prescale_matmul_kernel_eq_skeleton]; unfold cc0__prescale_matmul_kernel_skel
    unfold owns
    iintro ⟨⟨%f0, %hf0, H0⟩, ⟨%f1, %hf1, H1⟩, ⟨%f2, %hf2, H2⟩, ⟨%fs0, %hfs0, HS0⟩, Hk⟩
    obtain rfl := (hs0_0 t).eq_unread hf0; obtain rfl := (hs0_1 t).eq_unread hf1; obtain rfl := (hs0_2 t).eq_unread hf2; obtain rfl := (Memref.isWhole_whole cc0_scratch0).eq_unread hfs0
    sl_exec (disch := first | exact hc0 | exact hc1)
    sl_step
    iapply Hk
    isplitl [H0 H1 H2]
    · iapply ins0_intro V c t; iframe
    unfold ownsTiled; isplitr; swap; · iexists _; iexact HS0
    ipureintro; sl_kernel_rfl

end Cert.KernelIdeal.Hand

end
-- ==== Proof.R0.RunC.lean ====
import proofs.«426325_j37211596652926_1_alg».proof.Proof.R0.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N) (xs0 : Vec F S2048x1024 .f32)

/-- The last contraction step: the accumulator, at `xs0`, is updated, and stored over the output block. Both buffers' stores, with the triple. -/
def runC0 (h1 : t.val % 4 = 3) :
    Σ' L3 : List (View.Piece (Elt F) S2048x1024 .bf16), { LS0 : List (View.Piece (Elt F) S2048x1024 .f32) // Triple0 V c t iprop((∃ d, owns (c : Thread nD τ) (ms0_3 t) fullShare d) ∗ owns (c : Thread nD τ) scM0_0 fullShare xs0) iprop(ownsTiled (c : Thread nD τ) (ms0_3 t) L3 ∗ ownsTiled (c : Thread nD τ) scM0_0 LS0) } := by
  refine ⟨?_, ?_, fun E K => ?run⟩
  case run =>
    have hc0 : ¬cond0_0 (grid0.coords t) := fun h => by have := (hcond0_0 t).mp h; omega
    have hc1 := (hcond0_1 t).mpr h1
    unfold bodyAt0
    simp only [cc0__prescale_matmul_kernel_eq_skeleton]; unfold cc0__prescale_matmul_kernel_skel
    unfold owns
    iintro ⟨⟨%f0, %hf0, H0⟩, ⟨%f1, %hf1, H1⟩, ⟨%f2, %hf2, H2⟩, ⟨⟨%d3, %f3, -, H3⟩, ⟨%fs0, %hfs0, HS0⟩⟩, Hk⟩
    obtain rfl := (hs0_0 t).eq_unread hf0; obtain rfl := (hs0_1 t).eq_unread hf1; obtain rfl := (hs0_2 t).eq_unread hf2; obtain rfl := (Memref.isWhole_whole cc0_scratch0).eq_unread hfs0
    sl_exec (disch := first | exact hc0 | exact hc1)
    sl_step
    iapply Hk
    isplitl [H0 H1 H2]
    · iapply ins0_intro V c t; iframe
    isplitl [H3]
    · unfold ownsTiled; isplitr; swap; · iexists _; iexact H3
      ipureintro; sl_kernel_rfl
    unfold ownsTiled; isplitr; swap; · iexists _; iexact HS0
    ipureintro; sl_kernel_rfl

end Cert.KernelIdeal.Hand

end
-- ==== Proof.R0.Frame.lean ====
import proofs.«426325_j37211596652926_1_alg».proof.Proof.R0.RunA
import proofs.«426325_j37211596652926_1_alg».proof.Proof.R0.RunB
import proofs.«426325_j37211596652926_1_alg».proof.Proof.R0.RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- What the accumulator holds before point `n`: what the case of point `n - 1` left there, over what that point found (before the first point, nothing that is read). -/
def accAt0 : (n : ℕ) → n ≤ cfg0.N → Vec F S2048x1024 .f32
  | 0, _ => View.canon []
  | n + 1, hn =>
    if h0 : n % 4 = 0 then View.canon (runA0 V c ⟨n, hn⟩ h0).1
    else if h1 : n % 4 = 3 then View.canon (runC0 V c ⟨n, hn⟩ (accAt0 n (Nat.le_of_succ_le hn)) h1).2.1
    else View.canon (runB0 V c ⟨n, hn⟩ (accAt0 n (Nat.le_of_succ_le hn)) h0 h1).1

variable (t : Fin cfg0.N)

theorem accAt0_A (h0 : t.val % 4 = 0) : accAt0 V c (t.val + 1) t.isLt = View.canon (runA0 V c t h0).1 := dif_pos h0
theorem accAt0_B (h0 : ¬t.val % 4 = 0) (h1 : ¬t.val % 4 = 3) :
    accAt0 V c (t.val + 1) t.isLt = View.canon (runB0 V c t (accAt0 V c t.val t.isLt.le) h0 h1).1 := (dif_neg h0).trans (dif_neg h1)
theorem accAt0_C (h0 : ¬t.val % 4 = 0) (h1 : t.val % 4 = 3) :
    accAt0 V c (t.val + 1) t.isLt = View.canon (runC0 V c t (accAt0 V c t.val t.isLt.le) h1).2.1 := (dif_neg h0).trans (dif_pos h1)

/-- What the output block holds after point `t`: the last contraction step's store (elsewhere nothing that is read). -/
def outAt0 : Vec F S2048x1024 .bf16 :=
  if h1 : t.val % 4 = 3 then View.canon (runC0 V c t (accAt0 V c t.val t.isLt.le) h1).1 else View.canon []

/-- The region invariant before point `n`: the accumulator at what the point before left in it (at anything before the first), beside the rest. -/
def Phi0 (n : ℕ) (hn : n ≤ cfg0.N) : sProp 𝕄 :=
  iprop(∃ d, ⌜n ≠ 0 → d = accAt0 V c n hn⌝ ∗ owns (c : Thread nD τ) scM0_0 fullShare d ∗ rest0 c)

/-- The region's proof data: the arrays as it finds them; each input's buffer left at its block, the output's at `outAt0`. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ n := Phi0 V c n.val (Nat.le_of_lt_succ n.isLt)
  q _ := fullShare
  owed _ := 0

theorem A_eq0 (w : Fin cfg0.W) : (dat0 V c).A w = V c (Pipeline.arrRef spec0 w) := rfl

/-- What the body finds in each input's buffer at a point is the input's block there. -/
theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl

/-- The body at any point: the case `t % 4` selects runs on the input blocks and the accumulator as the invariant holds it, and leaves the next point's invariant; the output block changes at the last contraction step only. -/
theorem sound_body0 :
    iprop(Phi0 V c t.val t.isLt.le ∗ (dat0 V c).owesAt () t.castSucc
      ∗ (∃ d, owns (c : Thread nD τ) (ms0_0 t) fullShare ((dat0 V c).before 0 t d)) ∗ (∃ d, owns (c : Thread nD τ) (ms0_1 t) fullShare ((dat0 V c).before 1 t d))
      ∗ (∃ d, owns (c : Thread nD τ) (ms0_2 t) fullShare ((dat0 V c).before 2 t d)) ∗ (∃ d, owns (c : Thread nD τ) (ms0_3 t) fullShare ((dat0 V c).before 3 t d)))
    ⊢ wp frame (wpE (defs₀ (F := F)) Variants.none c none) Set.univ (bodyAt0 t) fun _ =>
      iprop(Phi0 V c (t.val + 1) t.isLt ∗ (dat0 V c).owesAt () t.castSucc
        ∗ owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ (dat0 V c).leavesExact 3 t) := by
  simp only [before0_0, before0_1, before0_2]
  unfold Phi0 bodyAt0
  iintro ⟨⟨%d, %hd, HS, HR⟩, Ho, ⟨%d0, H0⟩, ⟨%d1, H1⟩, ⟨%d2, H2⟩, ⟨%d3, H3⟩⟩
  by_cases h1 : t.val % 4 = 3
  · have h0 : ¬t.val % 4 = 0 := by omega
    obtain rfl := hd (by omega)
    rw [accAt0_C V c t h0 h1, show (dat0 V c).leavesExact 3 t = owns (c : Thread nD τ) (ms0_3 t) fullShare (View.canon (runC0 V c t (accAt0 V c t.val t.isLt.le) h1).1) from by
      unfold Dat.leavesExact; rw [Bool.eq_false_iff.mpr (mt (idle0_3 t).mp (not_not_intro h1))]
      exact congrArg (owns (c : Thread nD τ) (ms0_3 t) fullShare) (dif_pos h1)]
    iapply (runC0 V c t _ h1).2.2 Set.univ _
    iframe H0 H1 H2 HS
    isplitl [H3]; · iexists _; iexact H3
    iintro ⟨Hin, H3, HS⟩
    unfold ins0; icases Hin with ⟨H0, H1, H2⟩
    isplitl [HS HR]
    · iexists _; isplitr; · ipureintro; exact fun _ => rfl
      isplitl [HS]; · iapply ownsTiled_owns; iexact HS
      iexact HR
    iframe Ho H0 H1 H2
    iapply ownsTiled_owns; iexact H3
  · rw [Dat.leavesExact_idle (dat0 V c) 3 t ((idle0_3 t).mpr h1) (Bool.eq_false_iff.mpr (mt (flush0_3 t).mp h1))]
    by_cases h0 : t.val % 4 = 0
    · rw [accAt0_A V c t h0]
      iapply (runA0 V c t h0).2 Set.univ _
      iframe H0 H1 H2
      isplitl [HS]; · iexists d; iexact HS
      iintro ⟨Hin, HS⟩
      unfold ins0; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3
    · obtain rfl := hd (by omega)
      rw [accAt0_B V c t h0 h1]
      iapply (runB0 V c t _ h0 h1).2 Set.univ _
      iframe H0 H1 H2 HS
      iintro ⟨Hin, HS⟩
      unfold ins0; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := by
  refine (PhiA0_in c).trans ?_
  show _ ⊢ Phi0 V c 0 (Nat.zero_le _)
  unfold Phi0
  iintro ⟨%d, H⟩
  iexists d; isplitr; · ipureintro; exact fun h => absurd rfl h
  iexact H

theorem hout0 : (dat0 V c).Φ (Fin.last cfg0.N) ⊢ Pipeline.ΦA spec0 c := by
  show Phi0 V c _ _ ⊢ _
  unfold Phi0
  iintro ⟨%d, -, H⟩
  iapply PhiA0_out c d; iexact H

end Cert.KernelIdeal.Hand

end
-- ==== Proof.R1.Runs.lean ====
import proofs.«426325_j37211596652926_1_alg».proof.Proof.Gen.KernelIdeal.Launch
import proofs.«426325_j37211596652926_1_alg».proof.Proof.Gen.KernelIdeal.Skeleton
import proofs.«426325_j37211596652926_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«426325_j37211596652926_1_alg».proof.Proof.Lib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region finds. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

/-- The first branch is taken at the first contraction block, the second at the last. -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem idle1_4 : ∀ t : Fin cfg1.N, t.val % 4 ≠ 3 → cfg1.idle 4 (grid1.coords t) = true ∧ (cfg1.win 4).flush t = false := by decide +kernel
theorem live1_4 : ∀ t : Fin cfg1.N, t.val % 4 = 3 → cfg1.idle 4 (grid1.coords t) = false := by decide +kernel

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev scM1_0 : Memref sig .tc .vmem S2048x1024 .f32 := Memref.whole cc1_scratch0
abbrev scM1_1 : Memref sig .tc .vmem S2048x64 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's base invariant with the two accumulators set apart, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [Pipeline.scopedRest_split_of_list spec1 c [cc1_scratch0, cc1_scratch1] (by decide) (by decide)]
  simp only [scM1_0, scM1_1, owns_whole]; try rfl

/-- A buffer held at the writes `L` (last first) over some earlier contents. -/
def wr {S : Shape} {φ : EltTy} (c : Dev nD) (m : Memref sig .tc .vmem S φ) (L : List (View.Piece (Elt F) S φ)) : sProp 𝕄 :=
  iprop(∃ f, m.view.loc (c : Thread nD τ) ↦[m.view.set]{fullShare} m.view.writes (Elt F) f L)

/-- Writes that tile the buffer leave their canonical contents, whatever it held. -/
theorem owns_canon {S : Shape} {φ : EltTy} (c : Dev nD) (m : Memref sig .tc .vmem S φ) (L : List (View.Piece (Elt F) S φ))
    (hL : View.Piece.tiledL L S.size = true) : wr c m L ⊢ owns (c : Thread nD τ) m fullShare (View.canon L) := by
  unfold wr owns; iintro ⟨%f, H⟩; iexists _; isplitr; swap; · iexact H
  ipureintro; exact View.read_writes_eq_canon _ _ _ (View.cover_of_tiledL L _ hL)

variable (c : Dev nD) (t : Fin cfg1.N)

/-- The body's triple at point `t`: the four inputs at their blocks are handed back; `P` is what else it takes, `Q` what it hands back for that. -/
def Run1 (P Q : sProp 𝕄) : Prop := ∀ (E : Set ℕ) (K : PUnit → sProp 𝕄),
  iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (iblk1 V c 3 t) ∗ P
      ∗ (iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (iblk1 V c 3 t) ∗ Q) -∗ K ⟨⟩))
    ⊢ wp frame (wpE (defs₀ (F := F)) Variants.none c none) E (bodyAt1 t) K

/-- First contraction block: both accumulators are reset, then the block products added; the output block is not touched. -/
def runA (h0 : t.val % 4 = 0) :
    Σ' (LS0 : List (View.Piece (Elt F) S2048x1024 .f32)), { LS1 : List (View.Piece (Elt F) S2048x64 .f32) //
      ∀ xi4, Run1 V c t
        iprop(owns (c : Thread nD τ) (ms1_4 t) fullShare xi4 ∗ (∃ d, owns (c : Thread nD τ) scM1_0 fullShare d) ∗ (∃ d, owns (c : Thread nD τ) scM1_1 fullShare d))
        iprop(owns (c : Thread nD τ) (ms1_4 t) fullShare xi4 ∗ wr c scM1_0 LS0 ∗ wr c scM1_1 LS1) } := by
  refine ⟨?_, ?_, fun xi4 E K => ?run⟩
  case run =>
    have hc0 := (hcond1_0 t).mpr h0
    have hc1 : ¬cond1_1 (grid1.coords t) := fun h => by have := (hcond1_1 t).mp h; omega
    unfold bodyAt1
    simp only [cc1__decode_matmul_kernel_eq_skeleton]; unfold cc1__decode_matmul_kernel_skel
    unfold owns wr
    iintro ⟨⟨%f0, %hf0, H0⟩, ⟨%f1, %hf1, H1⟩, ⟨%f2, %hf2, H2⟩, ⟨%f3, %hf3, H3⟩, ⟨⟨%f4, %hf4, H4⟩, ⟨%ds0, %fs0, -, HS0⟩, ⟨%ds1, %fs1, -, HS1⟩⟩, Hk⟩
    obtain rfl := (hs1_0 t).eq_unread hf0; obtain rfl := (hs1_1 t).eq_unread hf1; obtain rfl := (hs1_2 t).eq_unread hf2
    obtain rfl := (hs1_3 t).eq_unread hf3; obtain rfl := (hs1_4 t).eq_unread hf4
    sl_exec (disch := first | exact hc0 | exact hc1)
    sl_step
    iapply Hk
    isplitl [H0]; · iapply unread_owned (c : Thread nD τ) (hs1_0 t); iexact H0
    isplitl [H1]; · iapply unread_owned (c : Thread nD τ) (hs1_1 t); iexact H1
    isplitl [H2]; · iapply unread_owned (c : Thread nD τ) (hs1_2 t); iexact H2
    isplitl [H3]; · iapply unread_owned (c : Thread nD τ) (hs1_3 t); iexact H3
    isplitl [H4]; · iapply unread_owned (c : Thread nD τ) (hs1_4 t); iexact H4
    isplitl [HS0]; · iexists _; iexact HS0
    iexists _; iexact HS1

/-- A middle contraction block: the block products are added to what the accumulators held; the output block is not touched. -/
def runB (h0 : ¬t.val % 4 = 0) (h1 : ¬t.val % 4 = 3) (a : Vec F S2048x1024 .f32 × Vec F S2048x64 .f32) :
    Σ' (LS0 : List (View.Piece (Elt F) S2048x1024 .f32)), { LS1 : List (View.Piece (Elt F) S2048x64 .f32) //
      ∀ xi4, Run1 V c t
        iprop(owns (c : Thread nD τ) (ms1_4 t) fullShare xi4 ∗ owns (c : Thread nD τ) scM1_0 fullShare a.1 ∗ owns (c : Thread nD τ) scM1_1 fullShare a.2)
        iprop(owns (c : Thread nD τ) (ms1_4 t) fullShare xi4 ∗ wr c scM1_0 LS0 ∗ wr c scM1_1 LS1) } := by
  refine ⟨?_, ?_, fun xi4 E K => ?run⟩
  case run =>
    have hc0 : ¬cond1_0 (grid1.coords t) := fun h => h0 ((hcond1_0 t).mp h)
    have hc1 : ¬cond1_1 (grid1.coords t) := fun h => h1 ((hcond1_1 t).mp h)
    unfold bodyAt1
    simp only [cc1__decode_matmul_kernel_eq_skeleton]; unfold cc1__decode_matmul_kernel_skel
    unfold owns wr
    iintro ⟨⟨%f0, %hf0, H0⟩, ⟨%f1, %hf1, H1⟩, ⟨%f2, %hf2, H2⟩, ⟨%f3, %hf3, H3⟩, ⟨⟨%f4, %hf4, H4⟩, ⟨%fs0, %hfs0, HS0⟩, ⟨%fs1, %hfs1, HS1⟩⟩, Hk⟩
    obtain rfl := (hs1_0 t).eq_unread hf0; obtain rfl := (hs1_1 t).eq_unread hf1; obtain rfl := (hs1_2 t).eq_unread hf2
    obtain rfl := (hs1_3 t).eq_unread hf3; obtain rfl := (hs1_4 t).eq_unread hf4
    obtain rfl := (Memref.isWhole_whole cc1_scratch0).eq_unread hfs0; obtain rfl := (Memref.isWhole_whole cc1_scratch1).eq_unread hfs1
    sl_exec (disch := first | exact hc0 | exact hc1)
    sl_step
    iapply Hk
    isplitl [H0]; · iapply unread_owned (c : Thread nD τ) (hs1_0 t); iexact H0
    isplitl [H1]; · iapply unread_owned (c : Thread nD τ) (hs1_1 t); iexact H1
    isplitl [H2]; · iapply unread_owned (c : Thread nD τ) (hs1_2 t); iexact H2
    isplitl [H3]; · iapply unread_owned (c : Thread nD τ) (hs1_3 t); iexact H3
    isplitl [H4]; · iapply unread_owned (c : Thread nD τ) (hs1_4 t); iexact H4
    isplitl [HS0]; · iexists _; iexact HS0
    iexists _; iexact HS1

/-- Last contraction block: the products are added, then the output block is stored from the accumulators and the thin left factor. -/
def runC (h0 : ¬t.val % 4 = 0) (h1 : t.val % 4 = 3) (a : Vec F S2048x1024 .f32 × Vec F S2048x64 .f32) :
    Σ' (L4 : List (View.Piece (Elt F) S2048x1024 .bf16)) (LS0 : List (View.Piece (Elt F) S2048x1024 .f32)), { LS1 : List (View.Piece (Elt F) S2048x64 .f32) //
      Run1 V c t
        iprop((∃ d, owns (c : Thread nD τ) (ms1_4 t) fullShare d) ∗ owns (c : Thread nD τ) scM1_0 fullShare a.1 ∗ owns (c : Thread nD τ) scM1_1 fullShare a.2)
        iprop(wr c (ms1_4 t) L4 ∗ wr c scM1_0 LS0 ∗ wr c scM1_1 LS1) } := by
  refine ⟨?_, ?_, ?_, fun E K => ?run⟩
  case run =>
    have hc0 : ¬cond1_0 (grid1.coords t) := fun h => h0 ((hcond1_0 t).mp h)
    have hc1 := (hcond1_1 t).mpr h1
    unfold bodyAt1
    simp only [cc1__decode_matmul_kernel_eq_skeleton]; unfold cc1__decode_matmul_kernel_skel
    unfold owns wr
    iintro ⟨⟨%f0, %hf0, H0⟩, ⟨%f1, %hf1, H1⟩, ⟨%f2, %hf2, H2⟩, ⟨%f3, %hf3, H3⟩, ⟨⟨%d4, %f4, -, H4⟩, ⟨%fs0, %hfs0, HS0⟩, ⟨%fs1, %hfs1, HS1⟩⟩, Hk⟩
    obtain rfl := (hs1_0 t).eq_unread hf0; obtain rfl := (hs1_1 t).eq_unread hf1; obtain rfl := (hs1_2 t).eq_unread hf2
    obtain rfl := (hs1_3 t).eq_unread hf3
    obtain rfl := (Memref.isWhole_whole cc1_scratch0).eq_unread hfs0; obtain rfl := (Memref.isWhole_whole cc1_scratch1).eq_unread hfs1
    sl_exec (disch := first | exact hc0 | exact hc1)
    sl_step
    iapply Hk
    isplitl [H0]; · iapply unread_owned (c : Thread nD τ) (hs1_0 t); iexact H0
    isplitl [H1]; · iapply unread_owned (c : Thread nD τ) (hs1_1 t); iexact H1
    isplitl [H2]; · iapply unread_owned (c : Thread nD τ) (hs1_2 t); iexact H2
    isplitl [H3]; · iapply unread_owned (c : Thread nD τ) (hs1_3 t); iexact H3
    isplitl [H4]; · iexists _; iexact H4
    isplitl [HS0]; · iexists _; iexact HS0
    iexists _; iexact HS1

end Cert.KernelIdeal.Hand

end
-- ==== Proof.R1.Frame.lean ====
import proofs.«426325_j37211596652926_1_alg».proof.Proof.R1.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Point
variable (c : Dev nD) (t : Fin cfg1.N)

/-- One point's work: what it leaves in the output block and in the two accumulators, given what the accumulators held. -/
def step1 (a : Vec F S2048x1024 .f32 × Vec F S2048x64 .f32) : Vec F S2048x1024 .bf16 × Vec F S2048x1024 .f32 × Vec F S2048x64 .f32 :=
  if h0 : t.val % 4 = 0 then (View.canon [], View.canon (runA V c t h0).1, View.canon (runA V c t h0).2.1)
  else if h1 : t.val % 4 = 3 then (View.canon (runC V c t h0 h1 a).1, View.canon (runC V c t h0 h1 a).2.1, View.canon (runC V c t h0 h1 a).2.2.1)
  else (View.canon [], View.canon (runB V c t h0 h1 a).1, View.canon (runB V c t h0 h1 a).2.1)

end Point

/-- What the two accumulators hold before point `n` (nothing in particular before the first). -/
def accs1 (c : Dev nD) : (n : ℕ) → n ≤ cfg1.N → Vec F S2048x1024 .f32 × Vec F S2048x64 .f32
  | 0, _ => (View.canon [], View.canon [])
  | n + 1, hn => (step1 V c ⟨n, hn⟩ (accs1 c n (Nat.le_of_lt hn))).2

/-- What point `t` leaves. -/
def outsAt1 (c : Dev nD) (t : Fin cfg1.N) := step1 V c t (accs1 V c t.val t.isLt.le)

/-- The invariant before point `n`: the base invariant at the start, afterwards with the accumulators at what the point before left. -/
def PhiS1 (c : Dev nD) (n : ℕ) (hn : n ≤ cfg1.N) : sProp 𝕄 :=
  if n = 0 then Pipeline.ΦA spec1 c
  else iprop(iprop(iprop(owns (c : Thread nD τ) scM1_0 fullShare (accs1 V c n hn).1 ∗ owns (c : Thread nD τ) scM1_1 fullShare (accs1 V c n hn).2) ∗ rest1 c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
  Φ t := PhiS1 V c t.val (Nat.le_of_lt_succ t.isLt)
  q _ := fullShare
  owed _ := 0

theorem Phi_cast (c : Dev nD) (t : Fin cfg1.N) : (dat1 V c).Φ t.castSucc = PhiS1 V c t.val t.isLt.le := rfl

theorem A_eq1 (c : Dev nD) (w : Fin cfg1.W) : (dat1 V c).A w = V c (Pipeline.arrRef spec1 w) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

/-- Whatever the point, the invariant before it holds the two accumulators at some contents. -/
theorem Phi_some (c : Dev nD) (n : ℕ) (hn : n ≤ cfg1.N) :
    PhiS1 V c n hn ⊢ iprop(iprop(iprop((∃ d, owns (c : Thread nD τ) scM1_0 fullShare d) ∗ (∃ d, owns (c : Thread nD τ) scM1_1 fullShare d)) ∗ rest1 c) ∗ (∃ r, prngReg c r)) := by
  unfold PhiS1
  by_cases hz : n = 0
  · rw [if_pos hz, PhiA1_eq]
  · rw [if_neg hz]
    iintro ⟨⟨⟨HS0, HS1⟩, HR⟩, Hg⟩
    isplitl [HS0 HS1 HR]
    · isplitl [HS0 HS1]
      · isplitl [HS0]
        · iexists _; iexact HS0
        · iexists _; iexact HS1
      iexact HR
    iexact Hg

/-- The body at any point: its residue mod 4 says which case runs; the invariant hands over the accumulators and takes them back. -/
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d)))
    ⊢ wp frame (wpE (defs₀ (F := F)) Variants.none c none) Set.univ (bodyAt1 t) (fun _ =>
      iprop(iprop(iprop(iprop(owns (c : Thread nD τ) scM1_0 fullShare (outsAt1 V c t).2.1 ∗ owns (c : Thread nD τ) scM1_1 fullShare (outsAt1 V c t).2.2) ∗ rest1 c) ∗ (∃ r, prngReg c r))
        ∗ (dat1 V c).owesAt () t.castSucc
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ (dat1 V c).leavesExact 4 t)) := by
  simp only [before1_0, before1_1, before1_2, before1_3]
  unfold outsAt1 step1
  by_cases h0 : t.val % 4 = 0
  · rw [dif_pos h0, Dat.leavesExact_idle (dat1 V c) 4 t (idle1_4 t (by omega)).1 (idle1_4 t (by omega)).2, Phi_cast]
    dsimp only
    iintro ⟨HΦ, Ho, ⟨%d0, H0⟩, ⟨%d1, H1⟩, ⟨%d2, H2⟩, ⟨%d3, H3⟩, ⟨%d4, H4⟩⟩
    ihave HΦ := (Phi_some V c t.val t.isLt.le) $$ HΦ
    icases HΦ with ⟨⟨⟨HS0, HS1⟩, HR⟩, Hg⟩
    iapply ((runA V c t h0).2.2 _ Set.univ _)
    iframe H0 H1 H2 H3 H4 HS0 HS1
    iintro ⟨H0, H1, H2, H3, H4, HS0, HS1⟩
    ihave HS0 := (owns_canon c scM1_0 (runA V c t h0).1 (by sl_kernel_rfl)) $$ HS0
    ihave HS1 := (owns_canon c scM1_1 (runA V c t h0).2.1 (by sl_kernel_rfl)) $$ HS1
    iframe HS0 HS1 HR Hg Ho H0 H1 H2 H3
    iexists _; iexact H4
  · have hz : t.val ≠ 0 := by omega
    rw [dif_neg h0, Phi_cast, PhiS1, if_neg hz]
    iintro ⟨⟨⟨⟨HS0, HS1⟩, HR⟩, Hg⟩, Ho, ⟨%d0, H0⟩, ⟨%d1, H1⟩, ⟨%d2, H2⟩, ⟨%d3, H3⟩, ⟨%d4, H4⟩⟩
    by_cases h1 : t.val % 4 = 3
    · rw [dif_pos h1, show (dat1 V c).leavesExact 4 t = owns (c : Thread nD τ) (ms1_4 t) fullShare (outsAt1 V c t).1 from by
        unfold Dat.leavesExact; rw [live1_4 t h1]; rfl]
      unfold outsAt1 step1; rw [dif_neg h0, dif_pos h1]
      dsimp only
      iapply ((runC V c t h0 h1 (accs1 V c t.val t.isLt.le)).2.2.2 Set.univ _)
      iframe H0 H1 H2 H3 HS0 HS1
      isplitl [H4]; · iexists _; iexact H4
      iintro ⟨H0, H1, H2, H3, H4, HS0, HS1⟩
      ihave H4 := (owns_canon c (ms1_4 t) (runC V c t h0 h1 (accs1 V c t.val t.isLt.le)).1 (by sl_kernel_rfl)) $$ H4
      ihave HS0 := (owns_canon c scM1_0 (runC V c t h0 h1 (accs1 V c t.val t.isLt.le)).2.1 (by sl_kernel_rfl)) $$ HS0
      ihave HS1 := (owns_canon c scM1_1 (runC V c t h0 h1 (accs1 V c t.val t.isLt.le)).2.2.1 (by sl_kernel_rfl)) $$ HS1
      iframe
    · rw [dif_neg h1, Dat.leavesExact_idle (dat1 V c) 4 t (idle1_4 t h1).1 (idle1_4 t h1).2]
      dsimp only
      iapply ((runB V c t h0 h1 (accs1 V c t.val t.isLt.le)).2.2 _ Set.univ _)
      iframe H0 H1 H2 H3 H4 HS0 HS1
      iintro ⟨H0, H1, H2, H3, H4, HS0, HS1⟩
      ihave HS0 := (owns_canon c scM1_0 (runB V c t h0 h1 (accs1 V c t.val t.isLt.le)).1 (by sl_kernel_rfl)) $$ HS0
      ihave HS1 := (owns_canon c scM1_1 (runB V c t h0 h1 (accs1 V c t.val t.isLt.le)).2.1 (by sl_kernel_rfl)) $$ HS1
      iframe HS0 HS1 HR Hg Ho H0 H1 H2 H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ PhiS1 V c 0 (Nat.zero_le _)
  rw [PhiS1, if_pos rfl]

theorem hout1 (c : Dev nD) : (dat1 V c).Φ (Fin.last cfg1.N) ⊢ Pipeline.ΦA spec1 c := by
  rw [PhiA1_eq]; exact Phi_some V c cfg1.N (Nat.le_refl _)

end Cert.KernelIdeal.Hand

end
-- ==== Proof.R2.Runs.lean ====
import proofs.«426325_j37211596652926_1_alg».proof.Proof.Gen.KernelIdeal.Launch
import proofs.«426325_j37211596652926_1_alg».proof.Proof.Gen.KernelIdeal.Skeleton
import proofs.«426325_j37211596652926_1_alg».proof.Proof.Gen.KernelIdeal.Points
import proofs.«426325_j37211596652926_1_alg».proof.Proof.Lib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- Window `w`'s block at point `t` of the array `V` holds for it when the region is entered. -/
noncomputable def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The body's first conditional (the accumulator is zeroed): the contraction coordinate is 0, -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- and its second (the scaled accumulator is stored to the output block): it is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem idle2_3 : ∀ t : Fin cfg2.N, cfg2.idle 3 (grid2.coords t) = true ↔ ¬t.val % 4 = 3 := by decide +kernel

/-- The memref the body is handed for window `w` at point `t`: a whole buffer. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)
/-- The accumulator. -/
abbrev scM2_0 : Memref sig .tc .vmem S2048x1024 .f32 := Memref.whole cc2_scratch0

/-- What the region holds beside the accumulator: the other scoped buffers unopened, and the generator register. -/
def rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [bigSepL_singleton, scM2_0, owns_whole]; try rfl

/-- The launch hands the region the accumulator at some contents beside the rest, -/
theorem PhiA2_in (c : Dev nD) : (Pipeline.ΦA spec2 c : sProp 𝕄) ⊢ iprop(∃ d, owns (c : Thread nD τ) scM2_0 fullShare d ∗ rest2 c) := by
  rw [PhiA2_eq]; unfold rest2
  iintro ⟨⟨⟨%d, HS⟩, Hr⟩, Hg⟩
  iexists d; iframe

/-- and takes it back at any. -/
theorem PhiA2_out (c : Dev nD) (d : Vec F S2048x1024 .f32) : iprop(owns (c : Thread nD τ) scM2_0 fullShare d ∗ rest2 c) ⊢ (Pipeline.ΦA spec2 c : sProp 𝕄) := by
  rw [PhiA2_eq]; unfold rest2
  iintro ⟨HS, Hr, Hg⟩
  iframe Hr Hg
  iexists d; iexact HS

variable (V : (c : Dev nD) → (b : Ref sig .tc) → Buf (Elt F) ((c : Thread nD τ).loc b)) (c : Dev nD) (t : Fin cfg2.N)

/-- The three inputs' memrefs at point `t`, at their blocks. -/
def ins2 : sProp 𝕄 := iprop(owns (c : Thread nD τ) (ms2_0 t) fullShare (iblk2 V c 0 t) ∗ owns (c : Thread nD τ) (ms2_1 t) fullShare (iblk2 V c 1 t) ∗ owns (c : Thread nD τ) (ms2_2 t) fullShare (iblk2 V c 2 t))

theorem ins2_intro : iprop(((ms2_0 t).view.loc (c : Thread nD τ) ↦[(ms2_0 t).view.set]{fullShare} (hs2_0 t).unread (iblk2 V c 0 t)) ∗ ((ms2_1 t).view.loc (c : Thread nD τ) ↦[(ms2_1 t).view.set]{fullShare} (hs2_1 t).unread (iblk2 V c 1 t)) ∗ ((ms2_2 t).view.loc (c : Thread nD τ) ↦[(ms2_2 t).view.set]{fullShare} (hs2_2 t).unread (iblk2 V c 2 t))) ⊢ (ins2 V c t : sProp 𝕄) := by
  unfold ins2
  iintro ⟨H0, H1, H2⟩
  isplitl [H0]; · iapply owns_unread (c : Thread nD τ) (hs2_0 t); iexact H0
  isplitl [H1]; · iapply owns_unread (c : Thread nD τ) (hs2_1 t); iexact H1
  iapply owns_unread (c : Thread nD τ) (hs2_2 t); iexact H2

/-- The body's triple at point `t`: the inputs at their blocks pass through, `P` becomes `Q`. -/
def Triple2 (P Q : sProp 𝕄) : Prop := ∀ (E : Set ℕ) (K : PUnit → sProp 𝕄),
  iprop(owns (c : Thread nD τ) (ms2_0 t) fullShare (iblk2 V c 0 t) ∗ owns (c : Thread nD τ) (ms2_1 t) fullShare (iblk2 V c 1 t) ∗ owns (c : Thread nD τ) (ms2_2 t) fullShare (iblk2 V c 2 t) ∗ P ∗ (iprop(ins2 V c t ∗ Q) -∗ K ⟨⟩))
    ⊢ wp frame (wpE (defs₀ (F := F)) Variants.none c none) E (bodyAt2 t) K

end Cert.KernelIdeal.Hand

end
-- ==== Proof.R2.RunA.lean ====
import proofs.«426325_j37211596652926_1_alg».proof.Proof.R2.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N)

/-- The first contraction step: the accumulator, at anything, is zeroed and updated. Its stores, with the triple. -/
def runA2 (h0 : t.val % 4 = 0) :
    { LS0 : List (View.Piece (Elt F) S2048x1024 .f32) // Triple2 V c t iprop(∃ d, owns (c : Thread nD τ) scM2_0 fullShare d) (ownsTiled (c : Thread nD τ) scM2_0 LS0) } := by
  refine ⟨?_, fun E K => ?run⟩
  case run =>
    have hc0 := (hcond2_0 t).mpr h0
    have hc1 : ¬cond2_1 (grid2.coords t) := fun h => by have := (hcond2_1 t).mp h; omega
    unfold bodyAt2
    simp only [cc2__postscale_matmul_kernel_eq_skeleton]; unfold cc2__postscale_matmul_kernel_skel
    unfold owns
    iintro ⟨⟨%f0, %hf0, H0⟩, ⟨%f1, %hf1, H1⟩, ⟨%f2, %hf2, H2⟩, ⟨%ds0, %fs0, -, HS0⟩, Hk⟩
    obtain rfl := (hs2_0 t).eq_unread hf0; obtain rfl := (hs2_1 t).eq_unread hf1; obtain rfl := (hs2_2 t).eq_unread hf2
    sl_exec (disch := first | exact hc0 | exact hc1)
    sl_step
    iapply Hk
    isplitl [H0 H1 H2]
    · iapply ins2_intro V c t; iframe
    unfold ownsTiled; isplitr; swap; · iexists _; iexact HS0
    ipureintro; sl_kernel_rfl

end Cert.KernelIdeal.Hand

end
-- ==== Proof.R2.RunB.lean ====
import proofs.«426325_j37211596652926_1_alg».proof.Proof.R2.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N) (xs0 : Vec F S2048x1024 .f32)

/-- A middle contraction step: the accumulator, at `xs0`, is updated. Its stores, with the triple. -/
def runB2 (h0 : ¬t.val % 4 = 0) (h1 : ¬t.val % 4 = 3) :
    { LS0 : List (View.Piece (Elt F) S2048x1024 .f32) // Triple2 V c t (owns (c : Thread nD τ) scM2_0 fullShare xs0) (ownsTiled (c : Thread nD τ) scM2_0 LS0) } := by
  refine ⟨?_, fun E K => ?run⟩
  case run =>
    have hc0 := mt (hcond2_0 t).mp h0
    have hc1 := mt (hcond2_1 t).mp h1
    unfold bodyAt2
    simp only [cc2__postscale_matmul_kernel_eq_skeleton]; unfold cc2__postscale_matmul_kernel_skel
    unfold owns
    iintro ⟨⟨%f0, %hf0, H0⟩, ⟨%f1, %hf1, H1⟩, ⟨%f2, %hf2, H2⟩, ⟨%fs0, %hfs0, HS0⟩, Hk⟩
    obtain rfl := (hs2_0 t).eq_unread hf0; obtain rfl := (hs2_1 t).eq_unread hf1; obtain rfl := (hs2_2 t).eq_unread hf2; obtain rfl := (Memref.isWhole_whole cc2_scratch0).eq_unread hfs0
    sl_exec (disch := first | exact hc0 | exact hc1)
    sl_step
    iapply Hk
    isplitl [H0 H1 H2]
    · iapply ins2_intro V c t; iframe
    unfold ownsTiled; isplitr; swap; · iexists _; iexact HS0
    ipureintro; sl_kernel_rfl

end Cert.KernelIdeal.Hand

end
-- ==== Proof.R2.RunC.lean ====
import proofs.«426325_j37211596652926_1_alg».proof.Proof.R2.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N) (xs0 : Vec F S2048x1024 .f32)

/-- The last contraction step: the accumulator, at `xs0`, is updated, and stored, scaled, over the output block. Both buffers' stores, with the triple. -/
def runC2 (h1 : t.val % 4 = 3) :
    Σ' L3 : List (View.Piece (Elt F) S2048x1024 .f32), { LS0 : List (View.Piece (Elt F) S2048x1024 .f32) // Triple2 V c t iprop((∃ d, owns (c : Thread nD τ) (ms2_3 t) fullShare d) ∗ owns (c : Thread nD τ) scM2_0 fullShare xs0) iprop(ownsTiled (c : Thread nD τ) (ms2_3 t) L3 ∗ ownsTiled (c : Thread nD τ) scM2_0 LS0) } := by
  refine ⟨?_, ?_, fun E K => ?run⟩
  case run =>
    have hc0 : ¬cond2_0 (grid2.coords t) := fun h => by have := (hcond2_0 t).mp h; omega
    have hc1 := (hcond2_1 t).mpr h1
    unfold bodyAt2
    simp only [cc2__postscale_matmul_kernel_eq_skeleton]; unfold cc2__postscale_matmul_kernel_skel
    unfold owns
    iintro ⟨⟨%f0, %hf0, H0⟩, ⟨%f1, %hf1, H1⟩, ⟨%f2, %hf2, H2⟩, ⟨⟨%d3, %f3, -, H3⟩, ⟨%fs0, %hfs0, HS0⟩⟩, Hk⟩
    obtain rfl := (hs2_0 t).eq_unread hf0; obtain rfl := (hs2_1 t).eq_unread hf1; obtain rfl := (hs2_2 t).eq_unread hf2; obtain rfl := (Memref.isWhole_whole cc2_scratch0).eq_unread hfs0
    sl_exec (disch := first | exact hc0 | exact hc1)
    sl_step
    iapply Hk
    isplitl [H0 H1 H2]
    · iapply ins2_intro V c t; iframe
    isplitl [H3]
    · unfold ownsTiled; isplitr; swap; · iexists _; iexact H3
      ipureintro; sl_kernel_rfl
    unfold ownsTiled; isplitr; swap; · iexists _; iexact HS0
    ipureintro; sl_kernel_rfl

end Cert.KernelIdeal.Hand

end
-- ==== Proof.R2.Frame.lean ====
import proofs.«426325_j37211596652926_1_alg».proof.Proof.R2.RunA
import proofs.«426325_j37211596652926_1_alg».proof.Proof.R2.RunB
import proofs.«426325_j37211596652926_1_alg».proof.Proof.R2.RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- What the accumulator holds before point `n`: what the case of point `n - 1` left there, over what that point found (before the first point, nothing that is read). -/
def accAt2 : (n : ℕ) → n ≤ cfg2.N → Vec F S2048x1024 .f32
  | 0, _ => View.canon []
  | n + 1, hn =>
    if h0 : n % 4 = 0 then View.canon (runA2 V c ⟨n, hn⟩ h0).1
    else if h1 : n % 4 = 3 then View.canon (runC2 V c ⟨n, hn⟩ (accAt2 n (Nat.le_of_succ_le hn)) h1).2.1
    else View.canon (runB2 V c ⟨n, hn⟩ (accAt2 n (Nat.le_of_succ_le hn)) h0 h1).1

variable (t : Fin cfg2.N)

theorem accAt2_A (h0 : t.val % 4 = 0) : accAt2 V c (t.val + 1) t.isLt = View.canon (runA2 V c t h0).1 := dif_pos h0
theorem accAt2_B (h0 : ¬t.val % 4 = 0) (h1 : ¬t.val % 4 = 3) :
    accAt2 V c (t.val + 1) t.isLt = View.canon (runB2 V c t (accAt2 V c t.val t.isLt.le) h0 h1).1 := (dif_neg h0).trans (dif_neg h1)
theorem accAt2_C (h0 : ¬t.val % 4 = 0) (h1 : t.val % 4 = 3) :
    accAt2 V c (t.val + 1) t.isLt = View.canon (runC2 V c t (accAt2 V c t.val t.isLt.le) h1).2.1 := (dif_neg h0).trans (dif_pos h1)

/-- What the output block holds after point `t`: the last contraction step's store (elsewhere nothing that is read). -/
def outAt2 : Vec F S2048x1024 .f32 :=
  if h1 : t.val % 4 = 3 then View.canon (runC2 V c t (accAt2 V c t.val t.isLt.le) h1).1 else View.canon []

/-- The region invariant before point `n`: the accumulator at what the point before left in it (at anything before the first), beside the rest. -/
def Phi2 (n : ℕ) (hn : n ≤ cfg2.N) : sProp 𝕄 :=
  iprop(∃ d, ⌜n ≠ 0 → d = accAt2 V c n hn⌝ ∗ owns (c : Thread nD τ) scM2_0 fullShare d ∗ rest2 c)

/-- The region's proof data: the arrays as it finds them; each input's buffer left at its block, the output's at `outAt2`. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ n := Phi2 V c n.val (Nat.le_of_lt_succ n.isLt)
  q _ := fullShare
  owed _ := 0

theorem A_eq2 (w : Fin cfg2.W) : (dat2 V c).A w = V c (Pipeline.arrRef spec2 w) := rfl

/-- What the body finds in each input's buffer at a point is the input's block there. -/
theorem before2_0 (d) : (dat2 V c).before 0 t d = iblk2 V c 0 t :=
  ((dat2 V c).before_in_eq_fetched 0 rfl (fun _ => rfl) (fun _ _ _ => rfl) (fun _ => rfl) t d).trans rfl
theorem before2_1 (d) : (dat2 V c).before 1 t d = iblk2 V c 1 t :=
  ((dat2 V c).before_in_eq_fetched 1 rfl (fun _ => rfl) (fun _ _ _ => rfl) (fun _ => rfl) t d).trans rfl
theorem before2_2 (d) : (dat2 V c).before 2 t d = iblk2 V c 2 t :=
  ((dat2 V c).before_in_eq_fetched 2 rfl (fun _ => rfl) (fun _ _ _ => rfl) (fun _ => rfl) t d).trans rfl

/-- The body at any point: the case `t % 4` selects runs on the input blocks and the accumulator as the invariant holds it, and leaves the next point's invariant; the output block changes at the last contraction step only. -/
theorem sound_body2 :
    iprop(Phi2 V c t.val t.isLt.le ∗ (dat2 V c).owesAt () t.castSucc
      ∗ (∃ d, owns (c : Thread nD τ) (ms2_0 t) fullShare ((dat2 V c).before 0 t d)) ∗ (∃ d, owns (c : Thread nD τ) (ms2_1 t) fullShare ((dat2 V c).before 1 t d))
      ∗ (∃ d, owns (c : Thread nD τ) (ms2_2 t) fullShare ((dat2 V c).before 2 t d)) ∗ (∃ d, owns (c : Thread nD τ) (ms2_3 t) fullShare ((dat2 V c).before 3 t d)))
    ⊢ wp frame (wpE (defs₀ (F := F)) Variants.none c none) Set.univ (bodyAt2 t) fun _ =>
      iprop(Phi2 V c (t.val + 1) t.isLt ∗ (dat2 V c).owesAt () t.castSucc
        ∗ owns (c : Thread nD τ) (ms2_0 t) fullShare (iblk2 V c 0 t) ∗ owns (c : Thread nD τ) (ms2_1 t) fullShare (iblk2 V c 1 t) ∗ owns (c : Thread nD τ) (ms2_2 t) fullShare (iblk2 V c 2 t) ∗ (dat2 V c).leavesExact 3 t) := by
  simp only [before2_0, before2_1, before2_2]
  unfold Phi2 bodyAt2
  iintro ⟨⟨%d, %hd, HS, HR⟩, Ho, ⟨%d0, H0⟩, ⟨%d1, H1⟩, ⟨%d2, H2⟩, ⟨%d3, H3⟩⟩
  by_cases h1 : t.val % 4 = 3
  · have h0 : ¬t.val % 4 = 0 := by omega
    obtain rfl := hd (by omega)
    rw [accAt2_C V c t h0 h1, show (dat2 V c).leavesExact 3 t = owns (c : Thread nD τ) (ms2_3 t) fullShare (View.canon (runC2 V c t (accAt2 V c t.val t.isLt.le) h1).1) from by
      unfold Dat.leavesExact; rw [Bool.eq_false_iff.mpr (mt (idle2_3 t).mp (not_not_intro h1))]
      exact congrArg (owns (c : Thread nD τ) (ms2_3 t) fullShare) (dif_pos h1)]
    iapply (runC2 V c t _ h1).2.2 Set.univ _
    iframe H0 H1 H2 HS
    isplitl [H3]; · iexists _; iexact H3
    iintro ⟨Hin, H3, HS⟩
    unfold ins2; icases Hin with ⟨H0, H1, H2⟩
    isplitl [HS HR]
    · iexists _; isplitr; · ipureintro; exact fun _ => rfl
      isplitl [HS]; · iapply ownsTiled_owns; iexact HS
      iexact HR
    iframe Ho H0 H1 H2
    iapply ownsTiled_owns; iexact H3
  · rw [Dat.leavesExact_idle (dat2 V c) 3 t ((idle2_3 t).mpr h1) (Bool.eq_false_iff.mpr (mt (flush2_3 t).mp h1))]
    by_cases h0 : t.val % 4 = 0
    · rw [accAt2_A V c t h0]
      iapply (runA2 V c t h0).2 Set.univ _
      iframe H0 H1 H2
      isplitl [HS]; · iexists d; iexact HS
      iintro ⟨Hin, HS⟩
      unfold ins2; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3
    · obtain rfl := hd (by omega)
      rw [accAt2_B V c t h0 h1]
      iapply (runB2 V c t _ h0 h1).2 Set.univ _
      iframe H0 H1 H2 HS
      iintro ⟨Hin, HS⟩
      unfold ins2; icases Hin with ⟨H0, H1, H2⟩
      isplitl [HS HR]
      · iexists _; isplitr; · ipureintro; exact fun _ => rfl
        isplitl [HS]; · iapply ownsTiled_owns; iexact HS
        iexact HR
      iframe Ho H0 H1 H2
      iexists _; iexact H3

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := by
  refine (PhiA2_in c).trans ?_
  show _ ⊢ Phi2 V c 0 (Nat.zero_le _)
  unfold Phi2
  iintro ⟨%d, H⟩
  iexists d; isplitr; · ipureintro; exact fun h => absurd rfl h
  iexact H

theorem hout2 : (dat2 V c).Φ (Fin.last cfg2.N) ⊢ Pipeline.ΦA spec2 c := by
  show Phi2 V c _ _ ⊢ _
  unfold Phi2
  iintro ⟨%d, -, H⟩
  iapply PhiA2_out c d; iexact H

end Cert.KernelIdeal.Hand

end
-- ==== Proof.Run.lean ====
import proofs.«426325_j37211596652926_1_alg».proof.Proof.R0.Frame
import proofs.«426325_j37211596652926_1_alg».proof.Proof.R1.Frame
import proofs.«426325_j37211596652926_1_alg».proof.Proof.R2.Frame
import proofs.«426325_j37211596652926_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vals : Type := Dev nD → Valuation τ sig (Elt F)
abbrev atTc (V : Vals (F := F)) : (c : Dev nD) → (b : Ref sig .tc) → Buf (Elt F) ((c : Thread nD τ).loc b) := fun c b => V c b

section Region

variable {cfg : Cfg sig Λ₀} (V : Vals (F := F)) (dat : (c : Dev nD) → Dat τ (Elt F) Unit ℕ (UR sig nD τ) ℕ cfg c) (c : Dev nD)

/-- What a region entered at `V` leaves: its arrays as after its last grid point, every other buffer as found. -/
def left : Valuation τ sig (Elt F) :=
  Pipeline.withArrays cfg.spec c (V c) fun w => (dat c).arrAt w cfg.N
theorem left_arr (hinj : Function.Injective (Pipeline.arrRef cfg.spec)) (w : Fin cfg.W) :
    left V dat c (Proc.devRef .tc (Pipeline.arrRef cfg.spec w)) = (dat c).arrAt w cfg.N :=
  Pipeline.withArrays_arr _ hinj c _ _ w
theorem left_rest (b : Ref sig .tc) (hb : b ∉ Finset.univ.image (Pipeline.arrRef cfg.spec)) :
    left V dat c (Proc.devRef .tc b) = V c (Proc.devRef .tc b) :=
  Pipeline.withArrays_of_ne _ c _ _ b fun w e => hb (Finset.mem_image.mpr ⟨w, Finset.mem_univ _, e⟩)

/-- Every window on the buffer `b` is an input window. -/
abbrev InOnly (cfg : Cfg sig Λ₀) (b : Ref sig .tc) : Prop :=
  ∀ w, Pipeline.arrRef cfg.spec w = b → (cfg.win w).isOut = false

/-- An input window's array has the same contents after every grid point, so a buffer with input windows only is left as found. -/
theorem left_in (hinj : Function.Injective (Pipeline.arrRef cfg.spec))
    (hA : ∀ w, (dat c).A w = V c (Proc.devRef .tc (Pipeline.arrRef cfg.spec w))) (b : Ref sig .tc) (hb : InOnly cfg b) :
    left V dat c (Proc.devRef .tc b) = V c (Proc.devRef .tc b) := by
  by_cases h : ∃ w, Pipeline.arrRef cfg.spec w = b
  · obtain ⟨w, rfl⟩ := h
    exact (left_arr V dat c hinj w).trans (((dat c).arrAt_in w (hb w rfl) _).trans (hA w))
  · exact Pipeline.withArrays_of_ne _ c _ _ b fun w e => h ⟨w, e⟩

end Region

abbrev W0 : Vals (F := F) := fun c b => (s₀ m ρ).mem ((c : Dev nD), b)
abbrev W1 : Vals (F := F) := fun c => StableHlo.after hostOps0 (W0 m ρ c)
abbrev In0 := atTc (W1 m ρ)
abbrev W2 : Vals (F := F) := left (W1 m ρ) (dat0 (In0 m ρ))
abbrev W3 : Vals (F := F) := fun c => StableHlo.after hostOps1 (W2 m ρ c)
abbrev W4 : Vals (F := F) := fun c => StableHlo.after hostOps1_1 (W3 m ρ c)
abbrev In1 := atTc (W4 m ρ)
abbrev W5 : Vals (F := F) := left (W4 m ρ) (dat1 (In1 m ρ))
abbrev W6 : Vals (F := F) := fun c => StableHlo.after hostOps2 (W5 m ρ c)
abbrev In2 := atTc (W6 m ρ)
abbrev W7 : Vals (F := F) := left (W6 m ρ) (dat2 (In2 m ρ))

abbrev admT : (p : Fin 3) → (pcfgs (F := F) p).Adm := fun p => (cfgs p).toPCfg_adm
abbrev pcfg : Fin 3 → Cfg sig Λ₀ := Pipeline.pin (pcfgs (F := F)) admT
/-- Region `p`'s proof data, read at the valuation the fold reaches before that region. -/
def pdats : (p : Fin 3) → (c : Dev nD) → Dat τ (Elt F) Unit ℕ (UR sig nD τ) ℕ (pcfg (F := F) p) c
  | ⟨0, _⟩ => dat0 (In0 m ρ)
  | ⟨1, _⟩ => dat1 (In1 m ρ)
  | ⟨2, _⟩ => dat2 (In2 m ρ)
abbrev 𝒱₀ : Variants := Variants.none
abbrev L : GSem nD τ sig → Finset Unit := fun _ => ∅
abbrev lv : GSem nD τ sig → Unit → ℕ := fun _ _ => 0
/-- What every thread state between two items carries beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Vals (F := F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- The segment of a region whose proof data holds every array whole and owes nothing: entered at `V`, left at `left V`. -/
def reg (p : Fin 3) (launch : Pipeline.LaunchFacts (nD := nD) (τ := τ) cfgs p) (V : Vals (F := F))
    (hA : ∀ c w, (pdats m ρ p c).A w = atTc V c (Pipeline.arrRef (pcfg (F := F) p).spec w))
    (hq : ∀ c w, (pdats m ρ p c).q w = fullShare) (howed : ∀ c t, (pdats m ρ p c).owed t = 0)
    (hrec : ∀ c x, x ∈ (pdats m ρ p c).recorded 0)
    (hbody : ∀ c, BodyObligation (pdats m ρ p c) (defs₀ (F := F)) 𝒱₀ () Set.univ)
    (hin : ∀ c, Pipeline.ΦA (pcfg (F := F) p).spec c ⊢ (pdats m ρ p c).Φ 0)
    (hout : ∀ c, (pdats m ρ p c).Φ (Fin.last (pcfg (F := F) p).N) ⊢ Pipeline.ΦA (pcfg (F := F) p).spec c) :
    Pipeline.RegionSeg (pcfgs (F := F)) admT (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (left V (pdats m ρ p) c) ∗ R c)
  X c := iprop(∃ r, prngReg c r)
  Y c := iprop(∃ r, prngReg c r)
  Z c := Pipeline.unscopedRest (Ix := Unit) (Name := ℕ) (U := UR sig nD τ) (Lvl := ℕ) (pcfg (F := F) p).spec c (atTc V c)
  hentry c := by
    rw [Pipeline.ownSems0_none]
    have hsplit := Pipeline.arrays_of_unscopedBufs (p := p) (pcfgs (F := F)) admT (pdats m ρ) launch.win launch.arr_whole c
      ((pdats m ρ p c).share_full (hq c)) (atTc V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admT (Ix := Unit) (Name := ℕ) (U := UR sig nD τ) (Lvl := ℕ)
      launch.win launch.arr_whole c (pdats m ρ) ((pdats m ρ p c).share_full (hq c))
      (atTc V c) (atTc (left V (pdats m ρ p)) c) ((pdats m ρ p c).arrAt · (pcfg (F := F) p).N)
      (fun w => (left_arr V (pdats m ρ p) c launch.win.arr_inj w).symm) (left_rest V (pdats m ρ p) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := reg m ρ 0 launch0 (W1 m ρ) (fun _ _ => rfl) (fun _ _ => rfl) (fun _ _ => rfl) (fun _ _ => trivial)
  (body_obligation0 (In0 m ρ)) (hin0 (In0 m ρ)) (hout0 (In0 m ρ))
def reg1 := reg m ρ 1 launch1 (W4 m ρ) (fun _ _ => rfl) (fun _ _ => rfl) (fun _ _ => rfl) (fun _ _ => trivial)
  (body_obligation1 (In1 m ρ)) (hin1 (In1 m ρ)) (hout1 (In1 m ρ))
def reg2 := reg m ρ 2 launch2 (W6 m ρ) (fun _ _ => rfl) (fun _ _ => rfl) (fun _ _ => rfl) (fun _ _ => trivial)
  (body_obligation2 (In2 m ρ)) (hin2 (In2 m ρ)) (hout2 (In2 m ρ))

abbrev items : List (Pipeline.Seg (pcfgs (F := F)) admT (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .region (reg2 m ρ) ]
theorem main_run (c : Dev nD) : main (F := F) c = Pipeline.Seg.run (items m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admT (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

section Kept

variable (c : Dev nD) (b : Ref sig .tc)

/-- `Kept k b`: no item of the program before boundary `k` changes the buffer `b`. -/
abbrev Kept1 : Prop := b ∉ hostOps0_W
abbrev Kept2 : Prop := InOnly cfg0 b ∧ Kept1 b
abbrev Kept3 : Prop := b ∉ hostOps1_W ∧ Kept2 b
abbrev Kept4 : Prop := b ∉ hostOps1_1_W ∧ Kept3 b
abbrev Kept5 : Prop := InOnly cfg1 b ∧ Kept4 b
abbrev Kept6 : Prop := b ∉ hostOps2_W ∧ Kept5 b
abbrev Kept7 : Prop := InOnly cfg2 b ∧ Kept6 b

/-- A buffer that no item so far changes still holds its launch contents. -/
theorem W1_kept (h : Kept1 b) : W1 m ρ c (Proc.devRef .tc b) = m ((c : Thread nD τ).loc b) :=
  StableHlo.after_of_writes_sub hostOps0 _ hostOps0_writes h
theorem W2_kept (h : Kept2 b) : W2 m ρ c (Proc.devRef .tc b) = m ((c : Thread nD τ).loc b) :=
  (left_in (W1 m ρ) (dat0 (In0 m ρ)) c launch0.win.arr_inj (A_eq0 _ c) b h.1).trans (W1_kept m ρ c b h.2)
theorem W3_kept (h : Kept3 b) : W3 m ρ c (Proc.devRef .tc b) = m ((c : Thread nD τ).loc b) :=
  (StableHlo.after_of_writes_sub hostOps1 _ hostOps1_writes h.1).trans (W2_kept m ρ c b h.2)
theorem W4_kept (h : Kept4 b) : W4 m ρ c (Proc.devRef .tc b) = m ((c : Thread nD τ).loc b) :=
  (StableHlo.after_of_writes_sub hostOps1_1 _ hostOps1_1_writes h.1).trans (W3_kept m ρ c b h.2)
theorem W5_kept (h : Kept5 b) : W5 m ρ c (Proc.devRef .tc b) = m ((c : Thread nD τ).loc b) :=
  (left_in (W4 m ρ) (dat1 (In1 m ρ)) c launch1.win.arr_inj (A_eq1 _ c) b h.1).trans (W4_kept m ρ c b h.2)
theorem W6_kept (h : Kept6 b) : W6 m ρ c (Proc.devRef .tc b) = m ((c : Thread nD τ).loc b) :=
  (StableHlo.after_of_writes_sub hostOps2 _ hostOps2_writes h.1).trans (W5_kept m ρ c b h.2)
theorem W7_kept (h : Kept7 b) : W7 m ρ c (Proc.devRef .tc b) = m ((c : Thread nD τ).loc b) :=
  (left_in (W6 m ρ) (dat2 (In2 m ρ)) c launch2.win.arr_inj (A_eq2 _ c) b h.1).trans (W6_kept m ρ c b h.2)

/-- The host lines between two regions do not write the earlier region's output array. -/
theorem W4_main_v1 : W4 m ρ c (Proc.devRef .tc main_v1) = (dat0 (In0 m ρ) c).arrAt 3 cfg0.N :=
  (StableHlo.after_of_writes_sub hostOps1_1 _ hostOps1_1_writes (by decide)).trans
    ((StableHlo.after_of_writes_sub hostOps1 _ hostOps1_writes (by decide)).trans (left_arr _ _ c launch0.win.arr_inj 3))
theorem W6_main_v7 : W6 m ρ c (Proc.devRef .tc main_v7) = (dat1 (In1 m ρ) c).arrAt 4 cfg1.N :=
  (StableHlo.after_of_writes_sub hostOps2 _ hostOps2_writes (by decide)).trans (left_arr _ _ c launch1.win.arr_inj 4)
theorem W7_main_v11 : W7 m ρ c (Proc.devRef .tc main_v11) = (dat2 (In2 m ρ) c).arrAt 3 cfg2.N :=
  left_arr _ _ c launch2.win.arr_inj 3

end Kept

/-- The run, read at the result buffer and at the eleven arguments. -/
theorem value_all : θ_run defs (onTc (τ := τ) (main (F := F))) ⟨m, fun _ => 0, ρ⟩ (fun r => ∀ c : Dev nD,
      r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v11 (by decide)),
     (h c _ (mem_uc main_arg0 (by decide))).trans (W7_kept m ρ c main_arg0 (by decide)),
     (h c _ (mem_uc main_arg1 (by decide))).trans (W7_kept m ρ c main_arg1 (by decide)),
     (h c _ (mem_uc main_arg2 (by decide))).trans (W7_kept m ρ c main_arg2 (by decide)),
     (h c _ (mem_uc main_arg3 (by decide))).trans (W7_kept m ρ c main_arg3 (by decide)),
     (h c _ (mem_uc main_arg4 (by decide))).trans (W7_kept m ρ c main_arg4 (by decide)),
     (h c _ (mem_uc main_arg5 (by decide))).trans (W7_kept m ρ c main_arg5 (by decide)),
     (h c _ (mem_uc main_arg6 (by decide))).trans (W7_kept m ρ c main_arg6 (by decide)),
     (h c _ (mem_uc main_arg7 (by decide))).trans (W7_kept m ρ c main_arg7 (by decide)),
     (h c _ (mem_uc main_arg8 (by decide))).trans (W7_kept m ρ c main_arg8 (by decide)),
     (h c _ (mem_uc main_arg9 (by decide))).trans (W7_kept m ρ c main_arg9 (by decide)),
     (h c _ (mem_uc main_arg10 (by decide))).trans (W7_kept m ρ c main_arg10 (by decide))⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (value_all m ρ)

end Cert.KernelIdeal.Hand

end
-- ==== Proof.BlockProd.lean ====
import proofs.«426325_j37211596652926_1_alg».proof.Proof.Gen.KernelIdeal.Skeleton
import Idealize.ShloMosaic.PureOps.Ideal.Laws
import Idealize.ShloMosaic.Lib.ValueIdx

noncomputable section

namespace Cert.KernelIdeal.Hand

open Cert.KernelIdeal Cert.KernelIdeal.Gen
open Idealize.ShloMosaic Idealize.ShloMosaic.ValueIdx

theorem lhs_blockProd_0 (i : S2048x1024.Idx) (k : dot_S2048x1024_S1024x1024_S2048x1024_1_0_0_1_n_n.contr.Idx) :
    (dot_S2048x1024_S1024x1024_S2048x1024_1_0_0_1_n_n.lhsIdx i k 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl

theorem lhs_blockProd_1 (i : S2048x1024.Idx) (k : dot_S2048x1024_S1024x1024_S2048x1024_1_0_0_1_n_n.contr.Idx) :
    (dot_S2048x1024_S1024x1024_S2048x1024_1_0_0_1_n_n.lhsIdx i k 1).val = (k ⟨0, by decide⟩).val :=
  dot_S2048x1024_S1024x1024_S2048x1024_1_0_0_1_n_n.lhsIdx_val_of_single rfl i k

theorem rhs_blockProd_0 (i : S2048x1024.Idx) (k : dot_S2048x1024_S1024x1024_S2048x1024_1_0_0_1_n_n.contr.Idx) :
    (dot_S2048x1024_S1024x1024_S2048x1024_1_0_0_1_n_n.rhsIdx i k 0).val = (k ⟨0, by decide⟩).val :=
  dot_S2048x1024_S1024x1024_S2048x1024_1_0_0_1_n_n.rhsIdx_val_of_single rfl i k

theorem rhs_blockProd_1 (i : S2048x1024.Idx) (k : dot_S2048x1024_S1024x1024_S2048x1024_1_0_0_1_n_n.contr.Idx) :
    (dot_S2048x1024_S1024x1024_S2048x1024_1_0_0_1_n_n.rhsIdx i k 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The 2048×1024 by 1024×1024 block product into the zero block, at (p, q): the sum over the 1024 contraction positions. -/
theorem blockProd_apply (lhs : FVec Ideal S2048x1024 .bf16) (rhs : FVec Ideal S1024x1024 .bf16) (p : Fin 2048) (q : Fin 1024) :
    matmul dot_S2048x1024_S1024x1024_S2048x1024_1_0_0_1_n_n none lhs rhs (constant (F := Ideal) S2048x1024 .f32 0x00000000#32) (ix2 p q)
      = ∑ kk : Fin 1024, lhs (ix2 p kk) * rhs (ix2 kk q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun kk _ => ?_
  have hk := contrEquiv1_symm_val dot_S2048x1024_S1024x1024_S2048x1024_1_0_0_1_n_n 1024 rfl rfl kk
  have el : dot_S2048x1024_S1024x1024_S2048x1024_1_0_0_1_n_n.lhsIdx (ix2 p q) ((contrEquiv1 dot_S2048x1024_S1024x1024_S2048x1024_1_0_0_1_n_n 1024 rfl rfl).symm kk) = ix2 p kk :=
    funext fun a => Fin.ext (by
      match a with
      | ⟨0, _⟩ => exact lhs_blockProd_0 _ _
      | ⟨1, _⟩ => exact (lhs_blockProd_1 _ _).trans hk)
  have er : dot_S2048x1024_S1024x1024_S2048x1024_1_0_0_1_n_n.rhsIdx (ix2 p q) ((contrEquiv1 dot_S2048x1024_S1024x1024_S2048x1024_1_0_0_1_n_n 1024 rfl rfl).symm kk) = ix2 kk q :=
    funext fun a => Fin.ext (by
      match a with
      | ⟨0, _⟩ => exact (rhs_blockProd_0 _ _).trans hk
      | ⟨1, _⟩ => exact rhs_blockProd_1 _ _)
  rw [el, er]

end Cert.KernelIdeal.Hand

end
-- ==== Proof.R0.Pay.lean ====
import proofs.«426325_j37211596652926_1_alg».proof.Proof.BlockProd
import Idealize.ShloMosaic.PureOps.Ideal.Laws
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

theorem k0_pay1_apply (p : Fin 2048) (q : Fin 1024) : (k0_pay1 (F := Ideal)) (ix2 p q) = 0 := by
  unfold k0_pay1
  refine (congrFun (shapeCast_self _ _) (ix2 p q)).trans ?_
  exact Ideal.ofBits_zero_f32

theorem k0_pay2_apply (x : Vec Ideal S2048x1024 .f32) (s : Vec Ideal S1x1024 .f32) (w : Vec Ideal S1024x1024 .f32)
    (acc : Vec Ideal S2048x1024 .f32) (p : Fin 2048) (q : Fin 1024) :
    k0_pay2 x s w acc (ix2 p q)
      = acc (ix2 p q) + ∑ kk : Fin 1024, (x (ix2 p kk) * s (ix2 (0 : Fin 1) kk)) * w (ix2 kk q) := by
  unfold k0_pay2
  refine (congrFun (shapeCast_self _ _) (ix2 p q)).trans ?_
  refine congrArg (acc (ix2 p q) + ·) ?_
  refine (blockProd_apply _ _ p q).trans ?_
  refine Finset.sum_congr rfl fun kk _ => ?_
  refine congrArg (· * w (ix2 kk q)) ?_
  refine congrArg (x (ix2 p kk) * ·) ?_
  refine (broadcastTo_1b_ab_apply _ _ p kk).trans ?_
  exact congrFun (shapeCast_self s _) (ix2 (0 : Fin 1) kk)

theorem k0_pay3_apply (acc : Vec Ideal S2048x1024 .f32) (p : Fin 2048) (q : Fin 1024) :
    k0_pay3 acc (ix2 p q) = acc (ix2 p q) := by
  unfold k0_pay3
  rfl

end Cert.KernelIdeal.Hand

end
-- ==== Proof.R0.Blocks.lean ====
import proofs.«426325_j37211596652926_1_alg».proof.Proof.Gen.KernelIdeal.Launch
import proofs.«426325_j37211596652926_1_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

theorem idx_facts0 : ∀ t : Fin cfg0.N,
    win0_0.index t (0 : Fin 2) = t.val / 16 ∧ win0_0.index t (1 : Fin 2) = t.val % 4
    ∧ win0_1.index t (0 : Fin 2) = 0 ∧ win0_1.index t (1 : Fin 2) = t.val % 4
    ∧ win0_2.index t (0 : Fin 2) = t.val % 4 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem read_blk0_0 (A : S8192x4096.Idx → EReal) (t : Fin cfg0.N) (p : Fin 2048) (kk : Fin 1024)
    (r : Fin 8192) (k : Fin 4096) (hr : r.val = t.val / 16 * 2048 + p.val) (hk : k.val = t.val % 4 * 1024 + kk.val) :
    ((cfg0.win 0).blk t).view.read (Elt Ideal) A (ix2 p kk) = A (ix2 r k) := by
  obtain ⟨e0, e1, -⟩ := idx_facts0 t
  show A (((cfg0.win 0).blk t).view.emb (ix2 p kk)) = A (ix2 r k)
  refine congrArg A (funext fun a => Fin.ext ?_)
  match a with
  | ⟨0, _⟩ => show win0_0.index t (0 : Fin 2) * 2048 + 1 * p.val = r.val; omega
  | ⟨1, _⟩ => show win0_0.index t (1 : Fin 2) * 1024 + 1 * kk.val = k.val; omega

theorem read_blk0_1 (A : S1x4096.Idx → EReal) (t : Fin cfg0.N) (kk : Fin 1024)
    (k : Fin 4096) (hk : k.val = t.val % 4 * 1024 + kk.val) :
    ((cfg0.win 1).blk t).view.read (Elt Ideal) A (ix2 (0 : Fin 1) kk) = A (ix2 (0 : Fin 1) k) := by
  obtain ⟨-, -, e2, e3, -⟩ := idx_facts0 t
  show A (((cfg0.win 1).blk t).view.emb (ix2 (0 : Fin 1) kk)) = A (ix2 (0 : Fin 1) k)
  refine congrArg A (funext fun a => Fin.ext ?_)
  match a with
  | ⟨0, _⟩ => show win0_1.index t (0 : Fin 2) * 1 + 1 * ((0 : Fin 1) : ℕ) = ((0 : Fin 1) : ℕ); rw [e2]; rfl
  | ⟨1, _⟩ => show win0_1.index t (1 : Fin 2) * 1024 + 1 * kk.val = k.val; omega

theorem read_blk0_2 (A : S4096x4096.Idx → EReal) (t : Fin cfg0.N) (kk : Fin 1024) (q : Fin 1024)
    (k : Fin 4096) (n : Fin 4096) (hk : k.val = t.val % 4 * 1024 + kk.val) (hn : n.val = t.val / 4 % 4 * 1024 + q.val) :
    ((cfg0.win 2).blk t).view.read (Elt Ideal) A (ix2 kk q) = A (ix2 k n) := by
  obtain ⟨-, -, -, -, e4, e5, -⟩ := idx_facts0 t
  show A (((cfg0.win 2).blk t).view.emb (ix2 kk q)) = A (ix2 k n)
  refine congrArg A (funext fun a => Fin.ext ?_)
  match a with
  | ⟨0, _⟩ => show win0_2.index t (0 : Fin 2) * 1024 + 1 * kk.val = k.val; omega
  | ⟨1, _⟩ => show win0_2.index t (1 : Fin 2) * 1024 + 1 * q.val = n.val; omega

theorem read_blk0_3 (G : S8192x4096.Idx → EReal) (t : Fin cfg0.N) (p : Fin 2048) (q : Fin 1024)
    (r : Fin 8192) (n : Fin 4096) (hr : r.val = t.val / 16 * 2048 + p.val) (hn : n.val = t.val / 4 % 4 * 1024 + q.val) :
    ((cfg0.win 3).blk t).view.read (Elt Ideal) G (ix2 p q) = G (ix2 r n) := by
  obtain ⟨-, -, -, -, -, -, e6, e7⟩ := idx_facts0 t
  show G (((cfg0.win 3).blk t).view.emb (ix2 p q)) = G (ix2 r n)
  refine congrArg G (funext fun a => Fin.ext ?_)
  match a with
  | ⟨0, _⟩ => show win0_3.index t (0 : Fin 2) * 2048 + 1 * p.val = r.val; omega
  | ⟨1, _⟩ => show win0_3.index t (1 : Fin 2) * 1024 + 1 * q.val = n.val; omega

theorem mem_blk0_3 (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v1).slice (win0_3.rect t)).set ↔ _
  rw [View.set_slice_whole, Rect.mem_set_unit]
  exact Iff.rfl

theorem cover0_3 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  let t : Fin cfg0.N := ⟨((i 0).val / 2048 * 4 + (i 1).val / 1024) * 4 + 3, by rw [hN]; omega⟩
  have ht : t.val = ((i 0).val / 2048 * 4 + (i 1).val / 1024) * 4 + 3 := rfl
  obtain ⟨-, -, -, -, -, -, e6, e7⟩ := idx_facts0 t
  refine ⟨t, (flush0_3 t).mpr (by omega), ?_⟩
  rw [mem_blk0_3]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 1024 ≤ (i 1).val ∧ (i 1).val < win0_3.index t (1 : Fin 2) * 1024 + 1024
    omega

end Cert.KernelIdeal.Hand

end
-- ==== Proof.Spec.lean ====
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev SAct : Shape := ⟨2, ![8192, 4096]⟩

abbrev SSq : Shape := ⟨2, ![4096, 4096]⟩

abbrev SRow : Shape := ⟨2, ![1, 4096]⟩

abbrev SThinR : Shape := ⟨2, ![64, 4096]⟩

abbrev SThinL : Shape := ⟨2, ![4096, 64]⟩

def c002 : EReal := Ideal.ofBits .f32 0x3CA3D70A#32

def first (x : SAct.Idx → EReal) (s : SRow.Idx → EReal) (w : SSq.Idx → EReal) (b : Fin 8192) (n : Fin 4096) : EReal :=
  ∑ k : Fin 4096, (x (ix2 b k) * s (ix2 (0 : Fin 1) k)) * w (ix2 k n)

def firstArr (x : SAct.Idx → EReal) (s : SRow.Idx → EReal) (w : SSq.Idx → EReal) : SAct.Idx → EReal :=
  fun j => first x s w (j 0) (j 1)

def second (h : SAct.Idx → EReal) (W : SSq.Idx → EReal) (R : SThinR.Idx → EReal) (L : SThinL.Idx → EReal)
    (b : Fin 8192) (m : Fin 4096) : EReal :=
  (∑ k : Fin 4096, h (ix2 b k) * W (ix2 m k)) * c002
    + ∑ r : Fin 64, (∑ k : Fin 4096, h (ix2 b k) * R (ix2 r k)) * L (ix2 m r)

def secondArr (h : SAct.Idx → EReal) (W : SSq.Idx → EReal) (R : SThinR.Idx → EReal) (L : SThinL.Idx → EReal) :
    SAct.Idx → EReal :=
  fun j => second h W R L (j 0) (j 1)

def third (y : SAct.Idx → EReal) (w : SSq.Idx → EReal) (s : SRow.Idx → EReal) (b : Fin 8192) (j : Fin 4096) : EReal :=
  (∑ m : Fin 4096, y (ix2 b m) * w (ix2 m j)) * s (ix2 (0 : Fin 1) j)

def thirdArr (y : SAct.Idx → EReal) (w : SSq.Idx → EReal) (s : SRow.Idx → EReal) : SAct.Idx → EReal :=
  fun j => third y w s (j 0) (j 1)

def at4 (p : Fin 4) (q : Fin 1024) : Fin 4096 := ⟨p.val * 1024 + q.val, by omega⟩

theorem sum_stretches {M : Type*} [AddCommMonoid M] (f : Fin 4096 → M) :
    ∑ k : Fin 4096, f k = ∑ p : Fin 4, ∑ q : Fin 1024, f (at4 p q) := by
  rw [← Finset.sum_product' (f := fun p q => f (at4 p q)), Finset.univ_product_univ]
  refine (Fintype.sum_equiv ((finProdFinEquiv (m := 4) (n := 1024)).trans (finCongr (by norm_num))) _ _ fun pq => ?_).symm
  refine congrArg f (Fin.ext ?_)
  simp only [Equiv.trans_apply, finCongr_apply, Fin.coe_cast, finProdFinEquiv_apply_val, at4]
  omega

theorem sum_48_16 {M : Type*} [AddCommMonoid M] (f : Fin 64 → M) :
    ∑ r : Fin 64, f r = ∑ r : Fin 48, f (Fin.castAdd 16 r) + ∑ r : Fin 16, f (Fin.natAdd 48 r) :=
  Fin.sum_univ_add (a := 48) (b := 16) f

end Cert.Spec

end
-- ==== Proof.R0.Sums.lean ====
import proofs.«426325_j37211596652926_1_alg».proof.Proof.Spec

noncomputable section

namespace Cert.KernelIdeal.Hand

open Idealize.ShloMosaic Idealize.ShloMosaic.ValueIdx
open Cert.Spec

def firstTerm (x : SAct.Idx → EReal) (s : SRow.Idx → EReal) (w : SSq.Idx → EReal) (b : Fin 8192) (n : Fin 4096)
    (r : ℕ) : EReal :=
  if h : r < 4 then
    ∑ kk : Fin 1024, (x (ix2 b (at4 ⟨r, h⟩ kk)) * s (ix2 (0 : Fin 1) (at4 ⟨r, h⟩ kk))) * w (ix2 (at4 ⟨r, h⟩ kk) n)
  else 0

theorem zero_add_sum_firstTerm (x : SAct.Idx → EReal) (s : SRow.Idx → EReal) (w : SSq.Idx → EReal) (b : Fin 8192)
    (n : Fin 4096) :
    0 + ∑ r ∈ Finset.range 4, firstTerm x s w b n r = first x s w b n := by
  rw [zero_add, Finset.sum_range, first,
    sum_stretches (fun k : Fin 4096 => (x (ix2 b k) * s (ix2 (0 : Fin 1) k)) * w (ix2 k n))]
  refine Finset.sum_congr rfl fun r _ => ?_
  unfold firstTerm
  rw [dif_pos r.isLt]

end Cert.KernelIdeal.Hand

end
-- ==== Proof.R0.Acc.lean ====
import proofs.«426325_j37211596652926_1_alg».proof.Proof.R0.Runs
import proofs.«426325_j37211596652926_1_alg».proof.Proof.R0.Blocks
import proofs.«426325_j37211596652926_1_alg».proof.Proof.R0.Sums

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Spec

variable (V : (c : Dev nD) → (b : Ref sig .tc) → Buf (Elt Ideal) ((c : Thread nD τ).loc b))

abbrev xarr0 (c : Dev nD) : SAct.Idx → EReal := V c main_arg0

abbrev sarr0 (c : Dev nD) : SRow.Idx → EReal := V c main_v0

abbrev warr0 (c : Dev nD) : SSq.Idx → EReal := V c main_arg8

abbrev xblk0 (c : Dev nD) (t : Fin cfg0.N) : Vec Ideal S2048x1024 .f32 := iblk0 V c 0 t

abbrev sblk0 (c : Dev nD) (t : Fin cfg0.N) : Vec Ideal S1x1024 .f32 := iblk0 V c 1 t

abbrev wblk0 (c : Dev nD) (t : Fin cfg0.N) : Vec Ideal S1024x1024 .f32 := iblk0 V c 2 t

def term0 (c : Dev nD) (n : ℕ) (p : Fin 2048) (q : Fin 1024) : EReal :=
  if h : n < cfg0.N then
    ∑ kk : Fin 1024, (xblk0 V c ⟨n, h⟩ (ix2 p kk) * sblk0 V c ⟨n, h⟩ (ix2 (0 : Fin 1) kk)) * wblk0 V c ⟨n, h⟩ (ix2 kk q)
  else 0

theorem term0_eq (c : Dev nD) (t : Fin cfg0.N) (p : Fin 2048) (q : Fin 1024) :
    term0 V c t.val p q
      = ∑ kk : Fin 1024, (xblk0 V c t (ix2 p kk) * sblk0 V c t (ix2 (0 : Fin 1) kk)) * wblk0 V c t (ix2 kk q) := by
  unfold term0
  rw [dif_pos t.isLt]

theorem term0_eq_firstTerm (c : Dev nD) (t : Fin cfg0.N) (r : ℕ) (hr : r < 4) (p : Fin 2048) (q : Fin 1024)
    (b : Fin 8192) (n : Fin 4096) (hb : b.val = t.val / 16 * 2048 + p.val) (hn : n.val = t.val / 4 % 4 * 1024 + q.val) :
    term0 V c (4 * (t.val / 4) + r) p q = firstTerm (xarr0 V c) (sarr0 V c) (warr0 V c) b n r := by
  have hN : cfg0.N = 64 := N_0
  have ht : t.val < 64 := lt_of_lt_of_eq t.isLt hN
  have hlt : 4 * (t.val / 4) + r < cfg0.N := lt_of_lt_of_eq (show 4 * (t.val / 4) + r < 64 by omega) hN.symm
  unfold term0 firstTerm
  rw [dif_pos hlt, dif_pos hr]
  refine Finset.sum_congr rfl fun kk _ => ?_
  have hv : (⟨4 * (t.val / 4) + r, hlt⟩ : Fin cfg0.N).val = 4 * (t.val / 4) + r := rfl
  have hk : (at4 ⟨r, hr⟩ kk).val = r * 1024 + kk.val := rfl
  have e0 : xblk0 V c ⟨4 * (t.val / 4) + r, hlt⟩ (ix2 p kk) = xarr0 V c (ix2 b (at4 ⟨r, hr⟩ kk)) :=
    read_blk0_0 (V c main_arg0) ⟨4 * (t.val / 4) + r, hlt⟩ p kk b (at4 ⟨r, hr⟩ kk) (by rw [hv, hb]; omega) (by rw [hv, hk]; omega)
  have e1 : sblk0 V c ⟨4 * (t.val / 4) + r, hlt⟩ (ix2 (0 : Fin 1) kk) = sarr0 V c (ix2 (0 : Fin 1) (at4 ⟨r, hr⟩ kk)) :=
    read_blk0_1 (V c main_v0) ⟨4 * (t.val / 4) + r, hlt⟩ kk (at4 ⟨r, hr⟩ kk) (by rw [hv, hk]; omega)
  have e2 : wblk0 V c ⟨4 * (t.val / 4) + r, hlt⟩ (ix2 kk q) = warr0 V c (ix2 (at4 ⟨r, hr⟩ kk) n) :=
    read_blk0_2 (V c main_arg8) ⟨4 * (t.val / 4) + r, hlt⟩ kk q (at4 ⟨r, hr⟩ kk) n (by rw [hv, hk]; omega) (by rw [hv, hn]; omega)
  rw [e0, e1, e2]

def psum0 (c : Dev nD) (b j : ℕ) (p : Fin 2048) (q : Fin 1024) : EReal :=
  ∑ s ∈ Finset.range (j + 1), term0 V c (b + s) p q

theorem psum0_zero (c : Dev nD) (b : ℕ) (p : Fin 2048) (q : Fin 1024) : psum0 V c b 0 p q = term0 V c b p q := by
  unfold psum0
  rw [Finset.sum_range_one, Nat.add_zero]

theorem psum0_succ (c : Dev nD) (b j : ℕ) (p : Fin 2048) (q : Fin 1024) :
    psum0 V c b (j + 1) p q = psum0 V c b j p q + term0 V c (b + (j + 1)) p q := by
  unfold psum0
  rw [Finset.sum_range_succ]

/-- Reset at the first point of a run of four and adding the point's term at the others, the accumulator after point `n` is the sum over the run up to `n`. -/
theorem acc_eq_psum0 (c : Dev nD) (acc : Fin cfg0.N → Vec Ideal S2048x1024 .f32)
    (hreset : ∀ t : Fin cfg0.N, t.val % 4 = 0 → ∀ (p : Fin 2048) (q : Fin 1024), acc t (ix2 p q) = term0 V c t.val p q)
    (hstep : ∀ (n : ℕ) (h : n + 1 < cfg0.N), ¬(n + 1) % 4 = 0 → ∀ (p : Fin 2048) (q : Fin 1024),
      acc ⟨n + 1, h⟩ (ix2 p q) = acc ⟨n, Nat.lt_of_succ_lt h⟩ (ix2 p q) + term0 V c (n + 1) p q) :
    ∀ (n : ℕ) (h : n < cfg0.N) (p : Fin 2048) (q : Fin 1024), acc ⟨n, h⟩ (ix2 p q) = psum0 V c (4 * (n / 4)) (n % 4) p q := by
  intro n
  induction n with
  | zero => exact fun h p q => (hreset ⟨0, h⟩ rfl p q).trans (psum0_zero V c 0 p q).symm
  | succ m ih =>
    intro h p q
    by_cases h0 : (m + 1) % 4 = 0
    · rw [hreset ⟨m + 1, h⟩ h0 p q, h0, psum0_zero]
      exact congrArg (fun k => term0 V c k p q) (show m + 1 = 4 * ((m + 1) / 4) by omega)
    · obtain ⟨j, hj⟩ : ∃ j, (m + 1) % 4 = j + 1 := ⟨(m + 1) % 4 - 1, by omega⟩
      rw [hstep m h h0 p q, ih (Nat.lt_of_succ_lt h) p q, hj, show (m + 1) / 4 = m / 4 from by omega, show m % 4 = j from by omega, psum0_succ]
      exact congrArg (fun k => psum0 V c (4 * (m / 4)) j p q + term0 V c k p q) (show m + 1 = 4 * (m / 4) + (j + 1) by omega)

theorem psum0_last (c : Dev nD) (t : Fin cfg0.N) (p : Fin 2048) (q : Fin 1024)
    (b : Fin 8192) (n : Fin 4096) (hb : b.val = t.val / 16 * 2048 + p.val) (hn : n.val = t.val / 4 % 4 * 1024 + q.val) :
    psum0 V c (4 * (t.val / 4)) 3 p q = first (xarr0 V c) (sarr0 V c) (warr0 V c) b n := by
  unfold psum0
  rw [← zero_add_sum_firstTerm (xarr0 V c) (sarr0 V c) (warr0 V c) b n, zero_add]
  refine Finset.sum_congr rfl fun r hr => ?_
  exact term0_eq_firstTerm V c t r (Finset.mem_range.mp hr) p q b n hb hn

end Cert.KernelIdeal.Hand

end
-- ==== Proof.R0.Value.lean ====
import proofs.«426325_j37211596652926_1_alg».proof.Proof.R0.Frame
import proofs.«426325_j37211596652926_1_alg».proof.Proof.R0.Pay
import proofs.«426325_j37211596652926_1_alg».proof.Proof.R0.Acc
import Idealize.ShloMosaic.Lib.Pipeline.Value

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.Sem
open Idealize.ShloMosaic.Pipeline (Dat)
open Cert.Spec

variable (V : (c : Dev nD) → (b : Ref sig .tc) → Buf (Elt Ideal) ((c : Thread nD τ).loc b)) (c : Dev nD) (t : Fin cfg0.N)

theorem hz0 : (![0, 0] : Fin 2 → Nat) = fun _ => 0 := funext fun a => by fin_cases a <;> rfl

/-- The first point of a run of four leaves in the accumulator the update of the zero block, -/
theorem accAt0_first (h0 : t.val % 4 = 0) :
    accAt0 V c (t.val + 1) t.isLt = k0_pay2 (xblk0 V c t) (sblk0 V c t) (wblk0 V c t) (k0_pay1 (F := Ideal)) := by
  rw [accAt0_A V c t h0]
  unfold runA0
  dsimp only
  sl_unfold_words
  rw [View.canon_cons_unit_zero (S := S2048x1024) hz0]
  simp only [View.readAt_eq_ld, Memref.IsWhole.read_unread, View.ld_unit_zero (S := S2048x1024) hz0, View.ld_unit_zero (S := S1x1024) hz0, View.ld_unit_zero (S := S1024x1024) hz0, View.readCov_unit_zero (S := S2048x1024) _ hz0]

/-- a later one the update of what it found there, -/
theorem accAt0_step (h0 : ¬t.val % 4 = 0) :
    accAt0 V c (t.val + 1) t.isLt = k0_pay2 (xblk0 V c t) (sblk0 V c t) (wblk0 V c t) (accAt0 V c t.val t.isLt.le) := by
  by_cases h1 : t.val % 4 = 3
  on_goal 1 => rw [accAt0_C V c t h0 h1]; unfold runC0
  on_goal 2 => rw [accAt0_B V c t h0 h1]; unfold runB0
  all_goals
    dsimp only
    sl_unfold_words
    rw [View.canon_unit_zero (S := S2048x1024) hz0]
    simp only [View.readAt_eq_ld, Memref.IsWhole.read_unread, View.ld_unit_zero (S := S2048x1024) hz0, View.ld_unit_zero (S := S1x1024) hz0, View.ld_unit_zero (S := S1024x1024) hz0]
    exact congrArg _ (Memref.IsWhole.read_unread _ _)

/-- and the last one stores what it leaves there, in the output's format, over the output block. -/
theorem outAt0_last (h1 : t.val % 4 = 3) : outAt0 V c t = k0_pay3 (accAt0 V c (t.val + 1) t.isLt) := by
  rw [accAt0_step V c t (by omega), show outAt0 V c t = _ from dif_pos h1]
  unfold runC0
  dsimp only
  sl_unfold_words
  rw [View.canon_unit_zero (S := S2048x1024) hz0]
  simp only [View.readAt_eq_ld, Memref.IsWhole.read_unread, View.ld_unit_zero (S := S2048x1024) hz0, View.ld_unit_zero (S := S1x1024) hz0, View.ld_unit_zero (S := S1024x1024) hz0, View.readCov_unit_zero (S := S2048x1024) _ hz0]
  exact congrArg (fun x => k0_pay3 (k0_pay2 _ _ _ x)) (Memref.IsWhole.read_unread _ _)

/-- What the accumulator holds after point `t`: the sum over the run of four up to `t`. -/
abbrev acc0 : Vec Ideal S2048x1024 .f32 := accAt0 V c (t.val + 1) t.isLt

theorem acc0_eq (p : Fin 2048) (q : Fin 1024) : acc0 V c t (ix2 p q) = psum0 V c (4 * (t.val / 4)) (t.val % 4) p q :=
  acc_eq_psum0 V c (acc0 V c)
    (fun t h0 p q => by rw [show acc0 V c t = _ from accAt0_first V c t h0, k0_pay2_apply, k0_pay1_apply, zero_add, term0_eq])
    (fun n h h0 p q => by
      rw [show acc0 V c ⟨n + 1, h⟩ = _ from accAt0_step V c ⟨n + 1, h⟩ h0, k0_pay2_apply]
      exact congrArg (_ + ·) (term0_eq V c ⟨n + 1, h⟩ p q).symm)
    t.val t.isLt p q

/-- What a point of the last contraction step writes back is its block of stage one of the specification. -/
theorem flushed0_3_eq (hf : (cfg0.win 3).flush t = true) :
    (dat0 V c).flushed 3 t
      = ((cfg0.win 3).blk t).view.read (Elt Ideal) (firstArr (xarr0 V c) (sarr0 V c) (warr0 V c)) := by
  have h3 : t.val % 4 = 3 := (flush0_3 t).mp hf
  have ht : t.val < 64 := lt_of_lt_of_eq t.isLt (show cfg0.N = 64 from N_0)
  show (cfg0.win 3).cut (grid0.coords t) (outAt0 V c t) = _
  refine funext fun (y : S2048x1024.Idx) => ?_
  obtain ⟨p, q, rfl⟩ : ∃ (p : Fin 2048) (q : Fin 1024), y = ix2 p q := ⟨y 0, y 1, eq_ix2 y⟩
  refine Eq.trans ?_ (read_blk0_3 (firstArr (xarr0 V c) (sarr0 V c) (warr0 V c)) t p q
    ⟨t.val / 16 * 2048 + p.val, by omega⟩ ⟨t.val / 4 % 4 * 1024 + q.val, by omega⟩ rfl rfl).symm
  show outAt0 V c t (ix2 p q)
    = first (xarr0 V c) (sarr0 V c) (warr0 V c) ⟨t.val / 16 * 2048 + p.val, by omega⟩ ⟨t.val / 4 % 4 * 1024 + q.val, by omega⟩
  rw [outAt0_last V c t h3, k0_pay3_apply, show accAt0 V c (t.val + 1) t.isLt (ix2 p q) = _ from acc0_eq V c t p q, h3]
  exact psum0_last V c t p q ⟨t.val / 16 * 2048 + p.val, by omega⟩ ⟨t.val / 4 % 4 * 1024 + q.val, by omega⟩ rfl rfl

/-- After the stage the output array is stage one of the specification of the arrays as the stage finds them. -/
theorem value0 :
    (dat0 V c).arrAt 3 cfg0.N = Cert.Spec.firstArr (V c main_arg0) (V c main_v0) (V c main_arg8) :=
  (dat0 V c).arrAt_eq_of_cover 3 (firstArr (xarr0 V c) (sarr0 V c) (warr0 V c)) (fun t hf => flushed0_3_eq V c t hf) cover0_3

end Cert.KernelIdeal.Hand

end
-- ==== Proof.R1.Pieces.lean ====
import proofs.«426325_j37211596652926_1_alg».proof.Proof.R1.Runs
import Idealize.ShloMosaic.Lib.Pipeline.Value

noncomputable section

namespace Cert.KernelIdeal.Hand.Decode

open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F] (V : (c : Dev nD) → (b : Ref sig .tc) → Buf (Elt F) ((c : Thread nD τ).loc b)) (c : Dev nD) (t : Fin cfg1.N)

theorem hz2 : (![0, 0] : Fin 2 → Nat) = fun _ => 0 := funext fun a => by fin_cases a <;> rfl

/-- What each case's stores leave, as payloads: stores and loads go through the whole buffer, so the last payload stands and a load reads the contents. -/
theorem canon1 :
    (∀ h0, (View.canon (runA V c t h0).1, View.canon (runA V c t h0).2.1)
      = (k1_pay4 (iblk1 V c 0 t) (iblk1 V c 1 t) (k1_pay1 (F := F)), k1_pay5 (iblk1 V c 0 t) (iblk1 V c 2 t) (k1_pay2 (F := F))))
    ∧ (∀ h0 h1 a, (View.canon (runB V c t h0 h1 a).1, View.canon (runB V c t h0 h1 a).2.1)
      = (k1_pay4 (iblk1 V c 0 t) (iblk1 V c 1 t) a.1, k1_pay5 (iblk1 V c 0 t) (iblk1 V c 2 t) a.2))
    ∧ (∀ h0 h1 a, (View.canon (runC V c t h0 h1 a).1, View.canon (runC V c t h0 h1 a).2.1, View.canon (runC V c t h0 h1 a).2.2.1)
      = (k1_pay6 (iblk1 V c 3 t) (k1_pay5 (iblk1 V c 0 t) (iblk1 V c 2 t) a.2) (k1_pay4 (iblk1 V c 0 t) (iblk1 V c 1 t) a.1),
         k1_pay4 (iblk1 V c 0 t) (iblk1 V c 1 t) a.1, k1_pay5 (iblk1 V c 0 t) (iblk1 V c 2 t) a.2)) := by
  refine ⟨fun h0 => ?_, fun h0 h1 a => ?_, fun h0 h1 a => ?_⟩ <;>
  (first | unfold runA | unfold runB | unfold runC) <;>
  dsimp only <;> sl_unfold_words <;>
  simp only [View.canon_cons_unit_zero (S := S2048x1024) hz2, View.canon_cons_unit_zero (S := S2048x64) hz2,
    View.readAt_eq_ld, (hs1_0 t).read_unread, (hs1_1 t).read_unread, (hs1_2 t).read_unread, (hs1_3 t).read_unread, (Memref.isWhole_whole cc1_scratch0).read_unread, (Memref.isWhole_whole cc1_scratch1).read_unread,
    View.readCov_unit_zero (S := S2048x1024) _ hz2, View.readCov_unit_zero (S := S2048x64) _ hz2,
    View.ld_unit_zero (S := S2048x1024) hz2, View.ld_unit_zero (S := S1024x1024) hz2, View.ld_unit_zero (S := S64x1024) hz2,
    View.ld_unit_zero (S := S1024x64) hz2, View.ld_unit_zero (S := S2048x64) hz2]

end Cert.KernelIdeal.Hand.Decode

end
-- ==== Proof.R1.Pay.lean ====
import proofs.«426325_j37211596652926_1_alg».proof.Proof.BlockProd
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.SL.Sem Idealize.ShloMosaic.ValueIdx
open Cert.KernelIdeal Cert.KernelIdeal.Gen

theorem lhs_thin_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem rhs_thin_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

theorem lhs_back_0 (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
theorem rhs_back_1 (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- A product with one contracted axis of extent `n`, into the zero splat, at an index: the sum over that axis. -/
theorem matmul0_apply {sl sr so : Shape} {φ₁ φ₂ : FTy} (D : DotDims sl sr so) (n : ℕ) (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    matmul D none lhs rhs (constant (F := Ideal) so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hL, hR]

theorem matmul_thin_apply {φ₁ φ₂ : FTy} (lhs : FVec Ideal S2048x1024 φ₁) (rhs : FVec Ideal S1024x64 φ₂) (p : Fin 2048) (q : Fin 64) :
    matmul dot_S2048x1024_S1024x64_S2048x64_1_0_0_1_n_n none lhs rhs (constant (F := Ideal) S2048x64 .f32 0x00000000#32) (ix2 p q)
      = ∑ kk : Fin 1024, lhs (ix2 p kk) * rhs (ix2 kk q) :=
  matmul0_apply dot_S2048x1024_S1024x64_S2048x64_1_0_0_1_n_n 1024 rfl rfl lhs rhs (ix2 p q) (ix2 p) (ix2 · q)
    (fun k => funext fun a => Fin.ext (by
      match a with
      | ⟨0, _⟩ => exact lhs_thin_0 _ _
      | ⟨1, _⟩ => exact (dot_S2048x1024_S1024x64_S2048x64_1_0_0_1_n_n.lhsIdx_val_of_single rfl _ _).trans (contrEquiv1_symm_val dot_S2048x1024_S1024x64_S2048x64_1_0_0_1_n_n 1024 rfl rfl k)))
    (fun k => funext fun a => Fin.ext (by
      match a with
      | ⟨0, _⟩ => exact (dot_S2048x1024_S1024x64_S2048x64_1_0_0_1_n_n.rhsIdx_val_of_single rfl _ _).trans (contrEquiv1_symm_val dot_S2048x1024_S1024x64_S2048x64_1_0_0_1_n_n 1024 rfl rfl k)
      | ⟨1, _⟩ => exact rhs_thin_1 _ _))

theorem matmul_back_apply {φ₁ φ₂ : FTy} (lhs : FVec Ideal S2048x64 φ₁) (rhs : FVec Ideal S64x1024 φ₂) (p : Fin 2048) (q : Fin 1024) :
    matmul dot_S2048x64_S64x1024_S2048x1024_1_0_0_1_n_n none lhs rhs (constant (F := Ideal) S2048x1024 .f32 0x00000000#32) (ix2 p q)
      = ∑ kk : Fin 64, lhs (ix2 p kk) * rhs (ix2 kk q) :=
  matmul0_apply dot_S2048x64_S64x1024_S2048x1024_1_0_0_1_n_n 64 rfl rfl lhs rhs (ix2 p q) (ix2 p) (ix2 · q)
    (fun k => funext fun a => Fin.ext (by
      match a with
      | ⟨0, _⟩ => exact lhs_back_0 _ _
      | ⟨1, _⟩ => exact (dot_S2048x64_S64x1024_S2048x1024_1_0_0_1_n_n.lhsIdx_val_of_single rfl _ _).trans (contrEquiv1_symm_val dot_S2048x64_S64x1024_S2048x1024_1_0_0_1_n_n 64 rfl rfl k)))
    (fun k => funext fun a => Fin.ext (by
      match a with
      | ⟨0, _⟩ => exact (dot_S2048x64_S64x1024_S2048x1024_1_0_0_1_n_n.rhsIdx_val_of_single rfl _ _).trans (contrEquiv1_symm_val dot_S2048x64_S64x1024_S2048x1024_1_0_0_1_n_n 64 rfl rfl k)
      | ⟨1, _⟩ => exact rhs_back_1 _ _))

theorem k1_pay1_apply (p : Fin 2048) (q : Fin 1024) : (k1_pay1 (F := Ideal)) (ix2 p q) = 0 := by
  unfold k1_pay1
  rw [shapeCast_self]
  exact Ideal.ofBits_zero_f32

theorem k1_pay2_apply (p : Fin 2048) (r : Fin 64) : (k1_pay2 (F := Ideal)) (ix2 p r) = 0 := by
  unfold k1_pay2
  rw [shapeCast_self]
  exact Ideal.ofBits_zero_f32

theorem k1_pay3_eq (h : Vec Ideal S2048x1024 .bf16) : k1_pay3 (F := Ideal) h = h := by
  unfold k1_pay3
  exact shapeCast_self _ _

/-- The wide update: the accumulator plus the activations' block times the decoded weight's block transposed. -/
theorem k1_pay4_apply (h : Vec Ideal S2048x1024 .bf16) (W : Vec Ideal S1024x1024 .bf16) (acc : Vec Ideal S2048x1024 .f32)
    (p : Fin 2048) (q : Fin 1024) :
    k1_pay4 (F := Ideal) h W acc (ix2 p q) = acc (ix2 p q) + ∑ kk : Fin 1024, h (ix2 p kk) * W (ix2 q kk) := by
  unfold k1_pay4
  rw [shapeCast_self, shapeCast_self, k1_pay3_eq]
  refine (addf_apply _ _ _).trans ?_
  refine congrArg (acc (ix2 p q) + ·) ?_
  refine (blockProd_apply _ _ p q).trans ?_
  refine Finset.sum_congr rfl fun kk _ => ?_
  exact congrArg (h (ix2 p kk) * ·) (transpose_ix2_apply W _ kk q)

/-- The thin update: the same against the thin right factor's block. -/
theorem k1_pay5_apply (h : Vec Ideal S2048x1024 .bf16) (R : Vec Ideal S64x1024 .f32) (thin : Vec Ideal S2048x64 .f32)
    (p : Fin 2048) (r : Fin 64) :
    k1_pay5 (F := Ideal) h R thin (ix2 p r) = thin (ix2 p r) + ∑ kk : Fin 1024, h (ix2 p kk) * R (ix2 r kk) := by
  unfold k1_pay5
  rw [shapeCast_self, shapeCast_self, k1_pay3_eq]
  refine (addf_apply _ _ _).trans ?_
  refine congrArg (thin (ix2 p r) + ·) ?_
  refine (matmul_thin_apply _ _ p r).trans ?_
  refine Finset.sum_congr rfl fun kk _ => ?_
  exact congrArg (h (ix2 p kk) * ·) (transpose_ix2_apply _ _ kk r)

/-- The stored block: the wide accumulator scaled, plus the thin accumulator times the thin left factor's block transposed. -/
theorem k1_pay6_apply (L : Vec Ideal S1024x64 .f32) (thin : Vec Ideal S2048x64 .f32) (acc : Vec Ideal S2048x1024 .f32)
    (p : Fin 2048) (q : Fin 1024) :
    k1_pay6 (F := Ideal) L thin acc (ix2 p q)
      = acc (ix2 p q) * Ideal.ofBits .f32 0x3CA3D70A#32 + ∑ r : Fin 64, thin (ix2 p r) * L (ix2 q r) := by
  unfold k1_pay6
  rw [shapeCast_self]
  refine (addf_apply _ _ _).trans ?_
  refine congrArg₂ (· + ·) rfl ?_
  refine (matmul_back_apply _ _ p q).trans ?_
  refine Finset.sum_congr rfl fun r _ => ?_
  exact congrArg (thin (ix2 p r) * ·) (transpose_ix2_apply _ _ r q)

end Cert.KernelIdeal.Hand

end
-- ==== Proof.R1.Acc.lean ====
import proofs.«426325_j37211596652926_1_alg».proof.Proof.Spec

noncomputable section

namespace Cert.KernelIdeal.Hand.Decode

open Idealize.ShloMosaic Idealize.ShloMosaic.ValueIdx Cert.Spec

def row4 (i : ℕ) (p : Fin 2048) : Fin 8192 := ⟨(i % 4) * 2048 + p.val, by omega⟩
def col4 (k : ℕ) (q : Fin 1024) : Fin 4096 := ⟨(k % 4) * 1024 + q.val, by omega⟩

theorem row4_val (i : ℕ) (p : Fin 2048) : (row4 i p).val = (i % 4) * 2048 + p.val := rfl
theorem col4_val (k : ℕ) (q : Fin 1024) : (col4 k q).val = (k % 4) * 1024 + q.val := rfl

theorem col4_eq_at4 (k : Fin 4) (q : Fin 1024) : col4 k.val q = at4 k q :=
  Fin.ext (by rw [col4_val, Nat.mod_eq_of_lt k.isLt]; rfl)

/-- The wide accumulator after point `n`, at (p, q): the block products over the contraction blocks so far. -/
def accWide (h : SAct.Idx → EReal) (W : SSq.Idx → EReal) (n : ℕ) (p : Fin 2048) (q : Fin 1024) : EReal :=
  ∑ k ∈ Finset.range (n % 4 + 1), ∑ kk : Fin 1024, h (ix2 (row4 (n / 16) p) (col4 k kk)) * W (ix2 (col4 (n / 4) q) (col4 k kk))

/-- The thin accumulator after point `n`, at (p, r): the same against the thin right factor. -/
def accThin (h : SAct.Idx → EReal) (R : SThinR.Idx → EReal) (n : ℕ) (p : Fin 2048) (r : Fin 64) : EReal :=
  ∑ k ∈ Finset.range (n % 4 + 1), ∑ kk : Fin 1024, h (ix2 (row4 (n / 16) p) (col4 k kk)) * R (ix2 r (col4 k kk))

theorem accWide_first (h : SAct.Idx → EReal) (W : SSq.Idx → EReal) (n : ℕ) (hn : n % 4 = 0) (p : Fin 2048) (q : Fin 1024) :
    accWide h W n p q
      = 0 + ∑ kk : Fin 1024, h (ix2 (row4 (n / 16) p) (col4 (n % 4) kk)) * W (ix2 (col4 (n / 4) q) (col4 (n % 4) kk)) := by
  unfold accWide
  rw [hn, Finset.sum_range_one, zero_add]

theorem accWide_next (h : SAct.Idx → EReal) (W : SSq.Idx → EReal) (n : ℕ) (hn : (n + 1) % 4 ≠ 0) (p : Fin 2048) (q : Fin 1024) :
    accWide h W (n + 1) p q
      = accWide h W n p q
        + ∑ kk : Fin 1024, h (ix2 (row4 ((n + 1) / 16) p) (col4 ((n + 1) % 4) kk)) * W (ix2 (col4 ((n + 1) / 4) q) (col4 ((n + 1) % 4) kk)) := by
  have e1 : (n + 1) % 4 = n % 4 + 1 := by omega
  have e2 : (n + 1) / 16 = n / 16 := by omega
  have e3 : (n + 1) / 4 = n / 4 := by omega
  unfold accWide
  rw [e1, e2, e3, Finset.sum_range_succ]

theorem accThin_first (h : SAct.Idx → EReal) (R : SThinR.Idx → EReal) (n : ℕ) (hn : n % 4 = 0) (p : Fin 2048) (r : Fin 64) :
    accThin h R n p r = 0 + ∑ kk : Fin 1024, h (ix2 (row4 (n / 16) p) (col4 (n % 4) kk)) * R (ix2 r (col4 (n % 4) kk)) := by
  unfold accThin
  rw [hn, Finset.sum_range_one, zero_add]

theorem accThin_next (h : SAct.Idx → EReal) (R : SThinR.Idx → EReal) (n : ℕ) (hn : (n + 1) % 4 ≠ 0) (p : Fin 2048) (r : Fin 64) :
    accThin h R (n + 1) p r
      = accThin h R n p r + ∑ kk : Fin 1024, h (ix2 (row4 ((n + 1) / 16) p) (col4 ((n + 1) % 4) kk)) * R (ix2 r (col4 ((n + 1) % 4) kk)) := by
  have e1 : (n + 1) % 4 = n % 4 + 1 := by omega
  have e2 : (n + 1) / 16 = n / 16 := by omega
  unfold accThin
  rw [e1, e2, Finset.sum_range_succ]

/-- Four stretches of 1024 are the whole sum over 4096 positions. -/
theorem sum_range4_stretches (f : Fin 4096 → EReal) :
    ∑ k ∈ Finset.range 4, ∑ kk : Fin 1024, f (col4 k kk) = ∑ k : Fin 4096, f k := by
  rw [sum_stretches f, Finset.sum_range]
  exact Finset.sum_congr rfl fun k _ => Finset.sum_congr rfl fun kk _ => congrArg f (col4_eq_at4 k kk)

theorem accWide_last (h : SAct.Idx → EReal) (W : SSq.Idx → EReal) (n : ℕ) (hn : n % 4 = 3) (p : Fin 2048) (q : Fin 1024) :
    accWide h W n p q = ∑ k : Fin 4096, h (ix2 (row4 (n / 16) p) k) * W (ix2 (col4 (n / 4) q) k) := by
  unfold accWide
  rw [hn]
  exact sum_range4_stretches fun k => h (ix2 (row4 (n / 16) p) k) * W (ix2 (col4 (n / 4) q) k)

theorem accThin_last (h : SAct.Idx → EReal) (R : SThinR.Idx → EReal) (n : ℕ) (hn : n % 4 = 3) (p : Fin 2048) (r : Fin 64) :
    accThin h R n p r = ∑ k : Fin 4096, h (ix2 (row4 (n / 16) p) k) * R (ix2 r k) := by
  unfold accThin
  rw [hn]
  exact sum_range4_stretches fun k => h (ix2 (row4 (n / 16) p) k) * R (ix2 r k)

/-- At a last contraction block the two accumulators combine to the specification's second stage at the point's row and column. -/
theorem second_of_acc (h : SAct.Idx → EReal) (W : SSq.Idx → EReal) (R : SThinR.Idx → EReal) (L : SThinL.Idx → EReal)
    (n : ℕ) (hn : n % 4 = 3) (p : Fin 2048) (q : Fin 1024) :
    accWide h W n p q * c002 + ∑ r : Fin 64, accThin h R n p r * L (ix2 (col4 (n / 4) q) r)
      = second h W R L (row4 (n / 16) p) (col4 (n / 4) q) := by
  unfold second
  rw [accWide_last h W n hn]
  exact congrArg _ (Finset.sum_congr rfl fun r _ => by rw [accThin_last h R n hn])

end Cert.KernelIdeal.Hand.Decode

end
-- ==== Proof.R1.Blocks.lean ====
import proofs.«426325_j37211596652926_1_alg».proof.Proof.Gen.KernelIdeal.Launch
import proofs.«426325_j37211596652926_1_alg».proof.Proof.Gen.KernelIdeal.Points
import proofs.«426325_j37211596652926_1_alg».proof.Proof.R1.Acc
import Idealize.ShloMosaic.Lib.ValueIdx
import Idealize.ShloMosaic.Lib.Pipeline.Value

noncomputable section

namespace Cert.KernelIdeal.Hand.Decode

open Idealize.ShloMosaic Idealize.ShloMosaic.TcCoe Idealize.SL.Sem Idealize.ShloMosaic.ValueIdx
open Cert.KernelIdeal Cert.KernelIdeal.Gen

variable {F : FTy → Type} [FloatOps F]

/-- The five windows' block indices at point `t`, in closed form. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val % 4
    ∧ win1_3.index t (0 : Fin 2) = t.val / 4 % 4 ∧ win1_3.index t (1 : Fin 2) = 0
    ∧ win1_4.index t (0 : Fin 2) = t.val / 16 ∧ win1_4.index t (1 : Fin 2) = t.val / 4 % 4 :=
  (by decide +kernel : ∀ t : Fin grid1.N, _)

theorem blk1_0_apply (c : Dev nD) (A : Buf (Elt F) ((c : Thread nD τ).loc main_v1)) (t : Fin cfg1.N) (p : Fin 2048) (kk : Fin 1024) :
    (((cfg1.win 0).blk t).view.read (Elt F) A : Vec F S2048x1024 .bf16) (ix2 p kk)
      = (A : Vec F S8192x4096 .bf16) (ix2 (row4 (t.val / 16) p) (col4 (t.val % 4) kk)) := by
  obtain ⟨h0, h1, -⟩ := idx_facts1 t
  have ht : t.val < 64 := lt_of_lt_of_eq t.isLt N_1
  rw [View.read_apply]
  show A _ = A _
  congr 1
  funext a
  apply Fin.ext
  match a with
  | ⟨0, _⟩ => show win1_0.index t 0 * 2048 + 1 * p.val = (t.val / 16 % 4) * 2048 + p.val; rw [h0]; omega
  | ⟨1, _⟩ => show win1_0.index t 1 * 1024 + 1 * kk.val = (t.val % 4 % 4) * 1024 + kk.val; rw [h1]; omega

theorem blk1_1_apply (c : Dev nD) (A : Buf (Elt F) ((c : Thread nD τ).loc main_v4)) (t : Fin cfg1.N) (q : Fin 1024) (kk : Fin 1024) :
    (((cfg1.win 1).blk t).view.read (Elt F) A : Vec F S1024x1024 .bf16) (ix2 q kk)
      = (A : Vec F S4096x4096 .bf16) (ix2 (col4 (t.val / 4) q) (col4 (t.val % 4) kk)) := by
  obtain ⟨-, -, h0, h1, -⟩ := idx_facts1 t
  have ht : t.val < 64 := lt_of_lt_of_eq t.isLt N_1
  rw [View.read_apply]
  show A _ = A _
  congr 1
  funext a
  apply Fin.ext
  match a with
  | ⟨0, _⟩ => show win1_1.index t 0 * 1024 + 1 * q.val = (t.val / 4 % 4) * 1024 + q.val; rw [h0]; omega
  | ⟨1, _⟩ => show win1_1.index t 1 * 1024 + 1 * kk.val = (t.val % 4 % 4) * 1024 + kk.val; rw [h1]; omega

theorem blk1_2_apply (c : Dev nD) (A : Buf (Elt F) ((c : Thread nD τ).loc main_v5)) (t : Fin cfg1.N) (r : Fin 64) (kk : Fin 1024) :
    (((cfg1.win 2).blk t).view.read (Elt F) A : Vec F S64x1024 .f32) (ix2 r kk)
      = (A : Vec F S64x4096 .f32) (ix2 r (col4 (t.val % 4) kk)) := by
  obtain ⟨-, -, -, -, h0, h1, -⟩ := idx_facts1 t
  have ht : t.val < 64 := lt_of_lt_of_eq t.isLt N_1
  rw [View.read_apply]
  show A _ = A _
  congr 1
  funext a
  apply Fin.ext
  match a with
  | ⟨0, _⟩ => show win1_2.index t 0 * 64 + 1 * r.val = r.val; rw [h0]; omega
  | ⟨1, _⟩ => show win1_2.index t 1 * 1024 + 1 * kk.val = (t.val % 4 % 4) * 1024 + kk.val; rw [h1]; omega

theorem blk1_3_apply (c : Dev nD) (A : Buf (Elt F) ((c : Thread nD τ).loc main_v6)) (t : Fin cfg1.N) (q : Fin 1024) (r : Fin 64) :
    (((cfg1.win 3).blk t).view.read (Elt F) A : Vec F S1024x64 .f32) (ix2 q r)
      = (A : Vec F S4096x64 .f32) (ix2 (col4 (t.val / 4) q) r) := by
  obtain ⟨-, -, -, -, -, -, h0, h1, -⟩ := idx_facts1 t
  have ht : t.val < 64 := lt_of_lt_of_eq t.isLt N_1
  rw [View.read_apply]
  show A _ = A _
  congr 1
  funext a
  apply Fin.ext
  match a with
  | ⟨0, _⟩ => show win1_3.index t 0 * 1024 + 1 * q.val = (t.val / 4 % 4) * 1024 + q.val; rw [h0]; omega
  | ⟨1, _⟩ => show win1_3.index t 1 * 64 + 1 * r.val = r.val; rw [h1]; omega

theorem blk1_4_apply (c : Dev nD) (A : Buf (Elt F) ((c : Thread nD τ).loc main_v7)) (t : Fin cfg1.N) (p : Fin 2048) (q : Fin 1024) :
    (((cfg1.win 4).blk t).view.read (Elt F) A : Vec F S2048x1024 .bf16) (ix2 p q)
      = (A : Vec F S8192x4096 .bf16) (ix2 (row4 (t.val / 16) p) (col4 (t.val / 4) q)) := by
  obtain ⟨-, -, -, -, -, -, -, -, h0, h1⟩ := idx_facts1 t
  have ht : t.val < 64 := lt_of_lt_of_eq t.isLt N_1
  rw [View.read_apply]
  show A _ = A _
  congr 1
  funext a
  apply Fin.ext
  match a with
  | ⟨0, _⟩ => show win1_4.index t 0 * 2048 + 1 * p.val = (t.val / 16 % 4) * 2048 + p.val; rw [h0]; omega
  | ⟨1, _⟩ => show win1_4.index t 1 * 1024 + 1 * q.val = (t.val / 4 % 4) * 1024 + q.val; rw [h1]; omega

theorem mem_blk1_4 (t : Fin cfg1.N) (i : S8192x4096.Idx) :
    i ∈ ((cfg1.win 4).blk t).view.set
      ↔ ∀ a : Fin 2, win1_4.index t a * S2048x1024.size a ≤ (i a).val ∧ (i a).val < win1_4.index t a * S2048x1024.size a + S2048x1024.size a := by
  show i ∈ ((View.whole main_v7).slice (win1_4.rect t)).set ↔ _
  rw [View.set_slice_whole, Rect.mem_set_unit]
  exact Iff.rfl

/-- Every index of the result array lies in the block of a point that is written back. -/
theorem cover1_4 (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 64 := N_1
  refine ⟨⟨((i 0).val / 2048 * 4 + (i 1).val / 1024) * 4 + 3, by rw [hN]; omega⟩, (flush1_4 _).mpr (by show (((i 0).val / 2048 * 4 + (i 1).val / 1024) * 4 + 3) % 4 = 3; omega), ?_⟩
  rw [mem_blk1_4]
  obtain ⟨-, -, -, -, -, -, -, -, h0, h1⟩ := idx_facts1 ⟨((i 0).val / 2048 * 4 + (i 1).val / 1024) * 4 + 3, by rw [hN]; omega⟩
  intro a
  match a with
  | ⟨0, _⟩ =>
    show win1_4.index _ (0 : Fin 2) * 2048 ≤ (i 0).val ∧ (i 0).val < win1_4.index _ (0 : Fin 2) * 2048 + 2048
    rw [h0]; show (((i 0).val / 2048 * 4 + (i 1).val / 1024) * 4 + 3) / 16 * 2048 ≤ (i 0).val ∧ (i 0).val < (((i 0).val / 2048 * 4 + (i 1).val / 1024) * 4 + 3) / 16 * 2048 + 2048
    omega
  | ⟨1, _⟩ =>
    show win1_4.index _ (1 : Fin 2) * 1024 ≤ (i 1).val ∧ (i 1).val < win1_4.index _ (1 : Fin 2) * 1024 + 1024
    rw [h1]; show (((i 0).val / 2048 * 4 + (i 1).val / 1024) * 4 + 3) / 4 % 4 * 1024 ≤ (i 1).val ∧ (i 1).val < (((i 0).val / 2048 * 4 + (i 1).val / 1024) * 4 + 3) / 4 % 4 * 1024 + 1024
    omega

end Cert.KernelIdeal.Hand.Decode

end
-- ==== Proof.R1.Steps.lean ====
import proofs.«426325_j37211596652926_1_alg».proof.Proof.R1.Runs
import proofs.«426325_j37211596652926_1_alg».proof.Proof.R1.Pay
import proofs.«426325_j37211596652926_1_alg».proof.Proof.R1.Blocks

noncomputable section

namespace Cert.KernelIdeal.Hand.Decode

open Idealize.ShloMosaic Idealize.ShloMosaic.TcCoe Idealize.SL.Sem Idealize.ShloMosaic.ValueIdx
open Cert.KernelIdeal Cert.KernelIdeal.Gen Cert.KernelIdeal.Hand Cert.Spec

variable (V : (c : Dev nD) → (b : Ref sig .tc) → Buf (Elt Ideal) ((c : Thread nD τ).loc b))

abbrev hArr (c : Dev nD) : SAct.Idx → EReal := V c main_v1
abbrev wArr (c : Dev nD) : SSq.Idx → EReal := V c main_v4
abbrev rArr (c : Dev nD) : SThinR.Idx → EReal := V c main_v5
abbrev lArr (c : Dev nD) : SThinL.Idx → EReal := V c main_v6

abbrev hBlk (c : Dev nD) (t : Fin cfg1.N) : Vec Ideal S2048x1024 .bf16 := iblk1 V c 0 t
abbrev wBlk (c : Dev nD) (t : Fin cfg1.N) : Vec Ideal S1024x1024 .bf16 := iblk1 V c 1 t
abbrev rBlk (c : Dev nD) (t : Fin cfg1.N) : Vec Ideal S64x1024 .f32 := iblk1 V c 2 t
abbrev lBlk (c : Dev nD) (t : Fin cfg1.N) : Vec Ideal S1024x64 .f32 := iblk1 V c 3 t

theorem hBlk_apply (c : Dev nD) (t : Fin cfg1.N) (p : Fin 2048) (kk : Fin 1024) :
    hBlk V c t (ix2 p kk) = hArr V c (ix2 (row4 (t.val / 16) p) (col4 (t.val % 4) kk)) :=
  blk1_0_apply (F := Ideal) c (V c main_v1) t p kk
theorem wBlk_apply (c : Dev nD) (t : Fin cfg1.N) (q : Fin 1024) (kk : Fin 1024) :
    wBlk V c t (ix2 q kk) = wArr V c (ix2 (col4 (t.val / 4) q) (col4 (t.val % 4) kk)) :=
  blk1_1_apply (F := Ideal) c (V c main_v4) t q kk
theorem rBlk_apply (c : Dev nD) (t : Fin cfg1.N) (r : Fin 64) (kk : Fin 1024) :
    rBlk V c t (ix2 r kk) = rArr V c (ix2 r (col4 (t.val % 4) kk)) :=
  blk1_2_apply (F := Ideal) c (V c main_v5) t r kk
theorem lBlk_apply (c : Dev nD) (t : Fin cfg1.N) (q : Fin 1024) (r : Fin 64) :
    lBlk V c t (ix2 q r) = lArr V c (ix2 (col4 (t.val / 4) q) r) :=
  blk1_3_apply (F := Ideal) c (V c main_v6) t q r

theorem wide_term (c : Dev nD) (t : Fin cfg1.N) (p : Fin 2048) (q : Fin 1024) :
    ∑ kk : Fin 1024, hBlk V c t (ix2 p kk) * wBlk V c t (ix2 q kk)
      = ∑ kk : Fin 1024, hArr V c (ix2 (row4 (t.val / 16) p) (col4 (t.val % 4) kk)) * wArr V c (ix2 (col4 (t.val / 4) q) (col4 (t.val % 4) kk)) :=
  Finset.sum_congr rfl fun kk _ => by rw [hBlk_apply, wBlk_apply]

theorem thin_term (c : Dev nD) (t : Fin cfg1.N) (p : Fin 2048) (r : Fin 64) :
    ∑ kk : Fin 1024, hBlk V c t (ix2 p kk) * rBlk V c t (ix2 r kk)
      = ∑ kk : Fin 1024, hArr V c (ix2 (row4 (t.val / 16) p) (col4 (t.val % 4) kk)) * rArr V c (ix2 r (col4 (t.val % 4) kk)) :=
  Finset.sum_congr rfl fun kk _ => by rw [hBlk_apply, rBlk_apply]

/-- At a first contraction block the update of the reset value is the sum's first term. -/
theorem wide_first (c : Dev nD) (t : Fin cfg1.N) (h0 : t.val % 4 = 0) (p : Fin 2048) (q : Fin 1024) :
    k1_pay4 (F := Ideal) (hBlk V c t) (wBlk V c t) (k1_pay1 (F := Ideal)) (ix2 p q) = accWide (hArr V c) (wArr V c) t.val p q := by
  rw [k1_pay4_apply, k1_pay1_apply, wide_term, accWide_first _ _ _ h0]

/-- At a later one the update of the sum so far is the sum with one more term. -/
theorem wide_next (c : Dev nD) (t : Fin cfg1.N) (h0 : ¬t.val % 4 = 0) (acc : Vec Ideal S2048x1024 .f32)
    (hacc : ∀ p q, acc (ix2 p q) = accWide (hArr V c) (wArr V c) (t.val - 1) p q) (p : Fin 2048) (q : Fin 1024) :
    k1_pay4 (F := Ideal) (hBlk V c t) (wBlk V c t) acc (ix2 p q) = accWide (hArr V c) (wArr V c) t.val p q := by
  obtain ⟨n, hn⟩ : ∃ n, t.val = n + 1 := ⟨t.val - 1, by omega⟩
  rw [k1_pay4_apply, hacc, wide_term, hn, Nat.add_sub_cancel, accWide_next _ _ _ (by rw [← hn]; exact h0)]

theorem thin_first (c : Dev nD) (t : Fin cfg1.N) (h0 : t.val % 4 = 0) (p : Fin 2048) (r : Fin 64) :
    k1_pay5 (F := Ideal) (hBlk V c t) (rBlk V c t) (k1_pay2 (F := Ideal)) (ix2 p r) = accThin (hArr V c) (rArr V c) t.val p r := by
  rw [k1_pay5_apply, k1_pay2_apply, thin_term, accThin_first _ _ _ h0]

theorem thin_next (c : Dev nD) (t : Fin cfg1.N) (h0 : ¬t.val % 4 = 0) (thin : Vec Ideal S2048x64 .f32)
    (hthin : ∀ p r, thin (ix2 p r) = accThin (hArr V c) (rArr V c) (t.val - 1) p r) (p : Fin 2048) (r : Fin 64) :
    k1_pay5 (F := Ideal) (hBlk V c t) (rBlk V c t) thin (ix2 p r) = accThin (hArr V c) (rArr V c) t.val p r := by
  obtain ⟨n, hn⟩ : ∃ n, t.val = n + 1 := ⟨t.val - 1, by omega⟩
  rw [k1_pay5_apply, hthin, thin_term, hn, Nat.add_sub_cancel, accThin_next _ _ _ (by rw [← hn]; exact h0)]

/-- At the last one the stored payload of the two full sums is the specification's second stage there. -/
theorem stored_last (c : Dev nD) (t : Fin cfg1.N) (h3 : t.val % 4 = 3) (acc : Vec Ideal S2048x1024 .f32) (thin : Vec Ideal S2048x64 .f32)
    (hacc : ∀ p q, acc (ix2 p q) = accWide (hArr V c) (wArr V c) t.val p q)
    (hthin : ∀ p r, thin (ix2 p r) = accThin (hArr V c) (rArr V c) t.val p r) (p : Fin 2048) (q : Fin 1024) :
    k1_pay6 (F := Ideal) (lBlk V c t) thin acc (ix2 p q)
      = secondArr (hArr V c) (wArr V c) (rArr V c) (lArr V c) (ix2 (row4 (t.val / 16) p) (col4 (t.val / 4) q)) := by
  rw [k1_pay6_apply, hacc]
  show _ = second (hArr V c) (wArr V c) (rArr V c) (lArr V c) (row4 (t.val / 16) p) (col4 (t.val / 4) q)
  rw [← second_of_acc _ _ _ _ _ h3]
  exact congrArg _ (Finset.sum_congr rfl fun r _ => by rw [hthin, lBlk_apply])

end Cert.KernelIdeal.Hand.Decode

end
-- ==== Proof.R1.Value.lean ====
import proofs.«426325_j37211596652926_1_alg».proof.Proof.R1.Frame
import proofs.«426325_j37211596652926_1_alg».proof.Proof.R1.Pieces
import proofs.«426325_j37211596652926_1_alg».proof.Proof.R1.Steps

noncomputable section

namespace Cert.KernelIdeal.Hand.Decode

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- One point's work as payloads of its blocks: the accumulators at a first contraction block and at a later one, the output block at the last. -/
theorem step1_eq (c : Dev nD) (t : Fin cfg1.N) (a : Vec Ideal S2048x1024 .f32 × Vec Ideal S2048x64 .f32) :
    (t.val % 4 = 0 → (step1 V c t a).2 = (k1_pay4 (hBlk V c t) (wBlk V c t) (k1_pay1 (F := Ideal)), k1_pay5 (hBlk V c t) (rBlk V c t) (k1_pay2 (F := Ideal))))
    ∧ (¬t.val % 4 = 0 → (step1 V c t a).2 = (k1_pay4 (hBlk V c t) (wBlk V c t) a.1, k1_pay5 (hBlk V c t) (rBlk V c t) a.2))
    ∧ (t.val % 4 = 3 → (step1 V c t a).1 = k1_pay6 (lBlk V c t) (k1_pay5 (hBlk V c t) (rBlk V c t) a.2) (k1_pay4 (hBlk V c t) (wBlk V c t) a.1)) := by
  have hc := canon1 V c t
  unfold step1
  refine ⟨fun h0 => ?_, fun h0 => ?_, fun h3 => ?_⟩
  · rw [dif_pos h0]; exact hc.1 _
  · rw [dif_neg h0]
    by_cases h1 : t.val % 4 = 3
    · rw [dif_pos h1]; exact congrArg Prod.snd (hc.2.2 _ _ a)
    · rw [dif_neg h1]; exact hc.2.1 _ _ a
  · rw [dif_neg (by omega), dif_pos h3]; exact congrArg Prod.fst (hc.2.2 _ _ a)

/-- The accumulators `a` hold the sums over the contraction blocks up to point `n`'s. -/
def AccOK (c : Dev nD) (n : ℕ) (a : Vec Ideal S2048x1024 .f32 × Vec Ideal S2048x64 .f32) : Prop :=
  (∀ p q, a.1 (ix2 p q) = accWide (hArr V c) (wArr V c) n p q) ∧ (∀ p r, a.2 (ix2 p r) = accThin (hArr V c) (rArr V c) n p r)

/-- A point takes the sums up to the block before it (nothing, at a first contraction block) to the sums up to its own. -/
theorem accOK_step (c : Dev nD) (t : Fin cfg1.N) (a : Vec Ideal S2048x1024 .f32 × Vec Ideal S2048x64 .f32)
    (ha : ¬t.val % 4 = 0 → AccOK V c (t.val - 1) a) : AccOK V c t.val (step1 V c t a).2 := by
  by_cases h0 : t.val % 4 = 0
  · rw [(step1_eq V c t a).1 h0]; exact ⟨wide_first V c t h0, thin_first V c t h0⟩
  · rw [(step1_eq V c t a).2.1 h0]; exact ⟨wide_next V c t h0 _ (ha h0).1, thin_next V c t h0 _ (ha h0).2⟩

/-- So before every point but the first the accumulators hold the sums up to the point before: by induction. -/
theorem accOK (c : Dev nD) : ∀ (n : ℕ) (hn : n ≤ cfg1.N), n ≠ 0 → AccOK V c (n - 1) (accs1 V c n hn)
  | 0, _, h => absurd rfl h
  | n + 1, hn, _ => accOK_step V c ⟨n, hn⟩ _ fun h0 => accOK c n (Nat.le_of_lt hn) fun h => h0 (by show n % 4 = 0; omega)

abbrev result (c : Dev nD) : SAct.Idx → EReal := secondArr (hArr V c) (wArr V c) (rArr V c) (lArr V c)

/-- What a point that is written back stores is its block of the specification's second stage. -/
theorem flushed1_4 (c : Dev nD) (t : Fin cfg1.N) (hf : (cfg1.win 4).flush t = true) :
    (dat1 V c).flushed 4 t = ((cfg1.win 4).blk t).view.read (Elt Ideal) (result V c) := by
  have h3 : t.val % 4 = 3 := (flush1_4 t).mp hf
  have h0 : ¬t.val % 4 = 0 := by omega
  have ih := accOK V c t.val t.isLt.le (by omega)
  show (cfg1.win 4).cut (grid1.coords t) ((dat1 V c).after 4 t) = _
  show ((step1 V c t (accs1 V c t.val t.isLt.le)).1 : Vec Ideal S2048x1024 .bf16)
    = (((cfg1.win 4).blk t).view.read (Elt Ideal) (result V c) : Vec Ideal S2048x1024 .bf16)
  rw [(step1_eq V c t _).2.2 h3]
  funext j
  obtain ⟨p, q, rfl⟩ : ∃ (p : Fin 2048) (q : Fin 1024), j = ix2 p q := ⟨j 0, j 1, eq_ix2 j⟩
  exact (stored_last V c t h3 _ _ (wide_next V c t h0 _ ih.1) (thin_next V c t h0 _ ih.2) p q).trans
    (blk1_4_apply (F := Ideal) c (result V c) t p q).symm

end Cert.KernelIdeal.Hand.Decode

namespace Cert.KernelIdeal.Hand

open Cert.KernelIdeal Cert.KernelIdeal.Gen
open Idealize.ShloMosaic Idealize.ShloMosaic.TcCoe
open Idealize.SL Idealize.SL.Sem

variable (V : (c : Dev nD) → (b : Ref sig .tc) → Buf (Elt Ideal) ((c : Thread nD τ).loc b))

/-- After the run the result array is the specification's second stage of the arrays the region finds. -/
theorem value1 (c : Dev nD) :
    (dat1 V c).arrAt 4 cfg1.N = Cert.Spec.secondArr (V c main_v1) (V c main_v4) (V c main_v5) (V c main_v6) :=
  (dat1 V c).arrAt_eq_of_cover 4 (Decode.result V c) (Decode.flushed1_4 V c) Decode.cover1_4

end Cert.KernelIdeal.Hand

end
-- ==== Proof.R2.Pay.lean ====
import proofs.«426325_j37211596652926_1_alg».proof.Proof.BlockProd
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

theorem k2_pay1_apply (p : Fin 2048) (q : Fin 1024) : (k2_pay1 (F := Ideal)) (ix2 p q) = 0 := by
  unfold k2_pay1
  rw [shapeCast_self]
  exact Ideal.ofBits_zero_f32

/-- The update: the running block plus the block product. -/
theorem k2_pay2_apply (v3 : Vec Ideal S2048x1024 .bf16) (v5 : Vec Ideal S1024x1024 .f32) (v7 : Vec Ideal S2048x1024 .f32)
    (p : Fin 2048) (q : Fin 1024) :
    k2_pay2 v3 v5 v7 (ix2 p q) = v7 (ix2 p q) + ∑ kk : Fin 1024, v3 (ix2 p kk) * v5 (ix2 kk q) := by
  unfold k2_pay2
  rw [shapeCast_self, shapeCast_self]
  refine (addf_apply _ _ _).trans ?_
  refine congrArg (v7 (ix2 p q) + ·) ?_
  exact blockProd_apply _ _ p q

/-- The stored result: column q of the running block times entry q of the row. -/
theorem k2_pay3_apply (v16 : Vec Ideal S2048x1024 .f32) (v17 : Vec Ideal S1x1024 .f32) (p : Fin 2048) (q : Fin 1024) :
    k2_pay3 v16 v17 (ix2 p q) = v16 (ix2 p q) * v17 (ix2 (0 : Fin 1) q) := by
  unfold k2_pay3
  rw [shapeCast_self]
  refine (mulf_apply _ _ _).trans ?_
  refine congrArg (v16 (ix2 p q) * ·) ?_
  refine broadcastTo_apply v17 broadcasts_S1x1024_S2048x1024 (ix2 p q) (ix2 (0 : Fin 1) q) fun a => ?_
  match a with
  | ⟨0, _⟩ => rfl
  | ⟨1, _⟩ => rfl

end Cert.KernelIdeal.Hand

end
-- ==== Proof.R2.Blocks.lean ====
import proofs.«426325_j37211596652926_1_alg».proof.Proof.Gen.KernelIdeal.Launch
import proofs.«426325_j37211596652926_1_alg».proof.Proof.Gen.KernelIdeal.Points
import proofs.«426325_j37211596652926_1_alg».proof.Proof.R2.Pay
import proofs.«426325_j37211596652926_1_alg».proof.Proof.Spec
import Idealize.ShloMosaic.Lib.Pipeline.Value

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat)

/-- The block indices of the four windows at point t = (i·4 + j)·4 + k. -/
theorem idx_facts2 : ∀ t : Fin cfg2.N,
    win2_0.index t (0 : Fin 2) = t.val / 16 ∧ win2_0.index t (1 : Fin 2) = t.val % 4
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

theorem N2_eq : cfg2.N = 64 := N_2

/-- Row block, column block and contraction block of a point. -/
def bi2 (t : Fin cfg2.N) : Fin 4 := ⟨t.val / 16, by have := t.isLt; have := N2_eq; omega⟩
def bj2 (t : Fin cfg2.N) : Fin 4 := ⟨t.val / 4 % 4, by omega⟩
def bk2 (t : Fin cfg2.N) : Fin 4 := ⟨t.val % 4, by omega⟩

/-- A point that is not the first of its run of four keeps the row and column blocks of the point before it and has the next contraction block. -/
theorem blk_succ2 (n : ℕ) (h : n + 1 < cfg2.N) (h0 : ¬(n + 1) % 4 = 0) :
    bi2 ⟨n + 1, h⟩ = bi2 ⟨n, Nat.lt_of_succ_lt h⟩ ∧ bj2 ⟨n + 1, h⟩ = bj2 ⟨n, Nat.lt_of_succ_lt h⟩
      ∧ (bk2 ⟨n + 1, h⟩).val = (bk2 ⟨n, Nat.lt_of_succ_lt h⟩).val + 1 := by
  refine ⟨Fin.ext ?_, Fin.ext ?_, ?_⟩
  · show (n + 1) / 16 = n / 16; omega
  · show (n + 1) / 4 % 4 = n / 4 % 4; omega
  · show (n + 1) % 4 = n % 4 + 1; omega

theorem bk2_of_last (t : Fin cfg2.N) (h3 : t.val % 4 = 3) : (bk2 t).val + 1 = 4 := by
  show t.val % 4 + 1 = 4; omega

def rowAt2 (b : Fin 4) (p : Fin 2048) : Fin 8192 := ⟨b.val * 2048 + p.val, by omega⟩

/-- Each window's block at a point, read at a position: the array at block index × block size + the position. -/
theorem read_blk2_0 (A : S8192x4096.Idx → EReal) (t : Fin cfg2.N) (p : Fin 2048) (kk : Fin 1024) :
    (((cfg2.win 0).blk t).view.read (Elt Ideal) A : S2048x1024.Idx → EReal) (ix2 p kk)
      = A (ix2 (rowAt2 (bi2 t) p) (Cert.Spec.at4 (bk2 t) kk)) := by
  obtain ⟨e0, e1, -⟩ := idx_facts2 t
  rw [View.read_apply]
  show A _ = A _
  refine congrArg A (funext fun a => Fin.ext ?_)
  match a with
  | ⟨0, _⟩ => show win2_0.index t (0 : Fin 2) * 2048 + 1 * p.val = (t.val / 16) * 2048 + p.val; rw [e0]; omega
  | ⟨1, _⟩ => show win2_0.index t (1 : Fin 2) * 1024 + 1 * kk.val = (t.val % 4) * 1024 + kk.val; rw [e1]; omega

theorem read_blk2_1 (A : S4096x4096.Idx → EReal) (t : Fin cfg2.N) (kk : Fin 1024) (q : Fin 1024) :
    (((cfg2.win 1).blk t).view.read (Elt Ideal) A : S1024x1024.Idx → EReal) (ix2 kk q)
      = A (ix2 (Cert.Spec.at4 (bk2 t) kk) (Cert.Spec.at4 (bj2 t) q)) := by
  obtain ⟨-, -, e2, e3, -⟩ := idx_facts2 t
  rw [View.read_apply]
  show A _ = A _
  refine congrArg A (funext fun a => Fin.ext ?_)
  match a with
  | ⟨0, _⟩ => show win2_1.index t (0 : Fin 2) * 1024 + 1 * kk.val = (t.val % 4) * 1024 + kk.val; rw [e2]; omega
  | ⟨1, _⟩ => show win2_1.index t (1 : Fin 2) * 1024 + 1 * q.val = (t.val / 4 % 4) * 1024 + q.val; rw [e3]; omega

theorem read_blk2_2 (A : S1x4096.Idx → EReal) (t : Fin cfg2.N) (q : Fin 1024) :
    (((cfg2.win 2).blk t).view.read (Elt Ideal) A : S1x1024.Idx → EReal) (ix2 (0 : Fin 1) q)
      = A (ix2 (0 : Fin 1) (Cert.Spec.at4 (bj2 t) q)) := by
  obtain ⟨-, -, -, -, e4, e5, -⟩ := idx_facts2 t
  rw [View.read_apply]
  show A _ = A _
  refine congrArg A (funext fun a => Fin.ext ?_)
  match a with
  | ⟨0, _⟩ => show win2_2.index t (0 : Fin 2) * 1 + 1 * (0 : Fin 1).val = (0 : Fin 1).val; rw [e4]; rfl
  | ⟨1, _⟩ => show win2_2.index t (1 : Fin 2) * 1024 + 1 * q.val = (t.val / 4 % 4) * 1024 + q.val; rw [e5]; omega

theorem read_blk2_3 (A : S8192x4096.Idx → EReal) (t : Fin cfg2.N) (p : Fin 2048) (q : Fin 1024) :
    (((cfg2.win 3).blk t).view.read (Elt Ideal) A : S2048x1024.Idx → EReal) (ix2 p q)
      = A (ix2 (rowAt2 (bi2 t) p) (Cert.Spec.at4 (bj2 t) q)) := by
  obtain ⟨-, -, -, -, -, -, e6, e7⟩ := idx_facts2 t
  rw [View.read_apply]
  show A _ = A _
  refine congrArg A (funext fun a => Fin.ext ?_)
  match a with
  | ⟨0, _⟩ => show win2_3.index t (0 : Fin 2) * 2048 + 1 * p.val = (t.val / 16) * 2048 + p.val; rw [e6]; omega
  | ⟨1, _⟩ => show win2_3.index t (1 : Fin 2) * 1024 + 1 * q.val = (t.val / 4 % 4) * 1024 + q.val; rw [e7]; omega

/-- The sum of the first n of four terms. -/
def runSum2 (g : Fin 4 → EReal) : ℕ → EReal
  | 0 => 0
  | n + 1 => runSum2 g n + (if h : n < 4 then g ⟨n, h⟩ else 0)

theorem runSum2_zero (g : Fin 4 → EReal) : runSum2 g 0 = 0 := rfl

theorem runSum2_succ (g : Fin 4 → EReal) (s : Fin 4) : runSum2 g (s.val + 1) = runSum2 g s.val + g s := by
  show runSum2 g s.val + (if h : s.val < 4 then g ⟨s.val, h⟩ else 0) = _
  rw [dif_pos s.isLt]

theorem runSum2_four (g : Fin 4 → EReal) : runSum2 g 4 = ∑ s : Fin 4, g s := by
  rw [Fin.sum_univ_four]
  show (((0 + (if h : 0 < 4 then g ⟨0, h⟩ else 0)) + (if h : 1 < 4 then g ⟨1, h⟩ else 0)) + (if h : 2 < 4 then g ⟨2, h⟩ else 0))
    + (if h : 3 < 4 then g ⟨3, h⟩ else 0) = _
  rw [dif_pos (by decide), dif_pos (by decide), dif_pos (by decide), dif_pos (by decide), zero_add]
  rfl

variable (Y : S8192x4096.Idx → EReal) (W : S4096x4096.Idx → EReal)

/-- Row b of the left matrix against column n of the right matrix, over contraction stretch s. -/
def stretch2 (b : Fin 8192) (n : Fin 4096) (s : Fin 4) : EReal :=
  ∑ kk : Fin 1024, Y (ix2 b (Cert.Spec.at4 s kk)) * W (ix2 (Cert.Spec.at4 s kk) n)

/-- The block of partial sums over the first n contraction stretches, for row block bi and column block bj. -/
def acc2 (bi bj : Fin 4) (n : ℕ) : FVec Ideal S2048x1024 .f32 :=
  fun y => runSum2 (stretch2 Y W (rowAt2 bi (y 0)) (Cert.Spec.at4 bj (y 1))) n

theorem acc2_apply (bi bj : Fin 4) (n : ℕ) (p : Fin 2048) (q : Fin 1024) :
    acc2 Y W bi bj n (ix2 p q) = runSum2 (stretch2 Y W (rowAt2 bi p) (Cert.Spec.at4 bj q)) n := rfl

theorem acc2_zero (bi bj : Fin 4) :
    (k2_pay1 (F := Ideal)) = acc2 Y W bi bj 0 := by
  funext y
  obtain ⟨p, q, rfl⟩ : ∃ (p : Fin 2048) (q : Fin 1024), y = ix2 p q := ⟨y 0, y 1, eq_ix2 y⟩
  rw [k2_pay1_apply, acc2_apply, runSum2_zero]

/-- One update at point t adds the point's contraction stretch to the running block. -/
theorem acc2_step (t : Fin cfg2.N) :
    k2_pay2 (F := Ideal) (((cfg2.win 0).blk t).view.read (Elt Ideal) Y) (((cfg2.win 1).blk t).view.read (Elt Ideal) W)
        (acc2 Y W (bi2 t) (bj2 t) (bk2 t).val)
      = acc2 Y W (bi2 t) (bj2 t) ((bk2 t).val + 1) := by
  funext y
  obtain ⟨p, q, rfl⟩ : ∃ (p : Fin 2048) (q : Fin 1024), y = ix2 p q := ⟨y 0, y 1, eq_ix2 y⟩
  rw [k2_pay2_apply, acc2_apply, acc2_apply, runSum2_succ]
  refine congrArg (runSum2 (stretch2 Y W (rowAt2 (bi2 t) p) (Cert.Spec.at4 (bj2 t) q)) (bk2 t).val + ·) ?_
  unfold stretch2
  refine Finset.sum_congr rfl fun kk _ => ?_
  rw [read_blk2_0, read_blk2_1]

/-- The block stored after all four stretches is the third stage's value there. -/
theorem out2_apply (R : S1x4096.Idx → EReal) (t : Fin cfg2.N)
    (p : Fin 2048) (q : Fin 1024) :
    k2_pay3 (F := Ideal) (acc2 Y W (bi2 t) (bj2 t) 4) (((cfg2.win 2).blk t).view.read (Elt Ideal) R) (ix2 p q)
      = Cert.Spec.third Y W R (rowAt2 (bi2 t) p) (Cert.Spec.at4 (bj2 t) q) := by
  rw [k2_pay3_apply, acc2_apply, runSum2_four, read_blk2_2]
  unfold Cert.Spec.third
  rw [Cert.Spec.sum_stretches]
  rfl

theorem mem_blk2_3 (t : Fin cfg2.N) (i : S8192x4096.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v11).slice (win2_3.rect t)).set ↔ _
  rw [View.set_slice_whole, Rect.mem_set_unit]
  exact Iff.rfl

/-- Every index of the output array is in the block of a point that writes its block back. -/
theorem cover2_3 (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hN := N2_eq
  let t : Fin cfg2.N := ⟨((i 0).val / 2048 * 4 + (i 1).val / 1024) * 4 + 3, by omega⟩
  have htv : t.val = ((i 0).val / 2048 * 4 + (i 1).val / 1024) * 4 + 3 := rfl
  obtain ⟨-, -, -, -, -, -, e6, e7⟩ := idx_facts2 t
  refine ⟨t, (flush2_3 t).mpr (by omega), ?_⟩
  rw [mem_blk2_3]
  intro a
  match a with
  | ⟨0, _⟩ => show win2_3.index t (0 : Fin 2) * 2048 ≤ (i 0).val ∧ (i 0).val < win2_3.index t (0 : Fin 2) * 2048 + 2048; rw [e6]; omega
  | ⟨1, _⟩ => show win2_3.index t (1 : Fin 2) * 1024 ≤ (i 1).val ∧ (i 1).val < win2_3.index t (1 : Fin 2) * 1024 + 1024; rw [e7]; omega

end Cert.KernelIdeal.Hand

end
-- ==== Proof.R2.Value.lean ====
import proofs.«426325_j37211596652926_1_alg».proof.Proof.R2.Frame
import proofs.«426325_j37211596652926_1_alg».proof.Proof.R2.Blocks

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.Sem
open Idealize.ShloMosaic.Pipeline (Dat)

variable (V : (c : Dev nD) → (b : Ref sig .tc) → Buf (Elt Ideal) ((c : Thread nD τ).loc b)) (c : Dev nD) (t : Fin cfg2.N)

theorem hz2 : (![0, 0] : Fin 2 → Nat) = fun _ => 0 := funext fun a => by fin_cases a <;> rfl

/-- The first point of a run of four leaves in the accumulator the update of the zero block, -/
theorem accAt2_first (h0 : t.val % 4 = 0) :
    accAt2 V c (t.val + 1) t.isLt = k2_pay2 (iblk2 V c 0 t) (iblk2 V c 1 t) (k2_pay1 (F := Ideal)) := by
  rw [accAt2_A V c t h0]
  unfold runA2
  dsimp only
  sl_unfold_words
  rw [View.canon_cons_unit_zero (S := S2048x1024) hz2, View.readCov_unit_zero (S := S2048x1024) _ hz2]
  simp only [View.readAt_eq_ld, Memref.IsWhole.read_unread, View.ld_unit_zero (S := S2048x1024) hz2, View.ld_unit_zero (S := S1024x1024) hz2, View.ld_unit_zero (S := S1x1024) hz2]

/-- a later one the update of what it found there, -/
theorem accAt2_step (h0 : ¬t.val % 4 = 0) :
    accAt2 V c (t.val + 1) t.isLt = k2_pay2 (iblk2 V c 0 t) (iblk2 V c 1 t) (accAt2 V c t.val t.isLt.le) := by
  by_cases h1 : t.val % 4 = 3
  on_goal 1 => rw [accAt2_C V c t h0 h1]; unfold runC2
  on_goal 2 => rw [accAt2_B V c t h0 h1]; unfold runB2
  all_goals
    dsimp only
    sl_unfold_words
    rw [View.canon_unit_zero hz2]
    simp only [View.readAt_eq_ld, Memref.IsWhole.read_unread, View.ld_unit_zero (S := S2048x1024) hz2, View.ld_unit_zero (S := S1024x1024) hz2, View.ld_unit_zero (S := S1x1024) hz2]
    exact congrArg _ (Memref.IsWhole.read_unread _ _)

/-- and the last one stores what it leaves there, scaled by the row, over the output block. -/
theorem outAt2_last (h1 : t.val % 4 = 3) : outAt2 V c t = k2_pay3 (accAt2 V c (t.val + 1) t.isLt) (iblk2 V c 2 t) := by
  rw [accAt2_step V c t (by omega), show outAt2 V c t = _ from dif_pos h1]
  unfold runC2
  dsimp only
  sl_unfold_words
  rw [View.canon_unit_zero hz2]
  simp only [View.readCov_unit_zero (S := S2048x1024) _ hz2, View.readAt_eq_ld, Memref.IsWhole.read_unread, View.ld_unit_zero (S := S2048x1024) hz2, View.ld_unit_zero (S := S1024x1024) hz2, View.ld_unit_zero (S := S1x1024) hz2]
  exact congrArg (fun x => k2_pay3 (k2_pay2 _ _ x) _) (Memref.IsWhole.read_unread _ _)

/-- The left matrix, the right matrix and the scale row as the region finds them. -/
abbrev yarr2 : FVec Ideal S8192x4096 .bf16 := V c main_v7
abbrev warr2 : FVec Ideal S4096x4096 .f32 := V c main_arg9
abbrev rarr2 : FVec Ideal S1x4096 .f32 := V c main_v10

/-- After point `n` the accumulator holds the partial sums over the contraction blocks up to the point's. -/
theorem scratch2_eq (n : ℕ) (h : n < cfg2.N) :
    accAt2 V c (n + 1) h = acc2 (yarr2 V c) (warr2 V c) (bi2 ⟨n, h⟩) (bj2 ⟨n, h⟩) ((bk2 ⟨n, h⟩).val + 1) := by
  have step := acc2_step (yarr2 V c) (warr2 V c) ⟨n, h⟩
  by_cases h0 : n % 4 = 0
  · rw [accAt2_first V c ⟨n, h⟩ h0, acc2_zero (yarr2 V c) (warr2 V c) (bi2 ⟨n, h⟩) (bj2 ⟨n, h⟩)]
    have hk : (bk2 ⟨n, h⟩).val = 0 := h0
    rw [hk] at step ⊢
    exact step
  · obtain ⟨m, rfl⟩ : ∃ m, n = m + 1 := ⟨n - 1, by omega⟩
    obtain ⟨e1, e2, e3⟩ := blk_succ2 m h h0
    rw [accAt2_step V c ⟨m + 1, h⟩ h0]
    dsimp only
    rw [scratch2_eq m (Nat.lt_of_succ_lt h), ← e1, ← e2, ← e3]
    exact step

/-- What a point of the last contraction step writes back is its block of the third stage's array. -/
theorem flushed2_eq (hf : (cfg2.win 3).flush t = true) :
    (dat2 V c).flushed 3 t
      = ((cfg2.win 3).blk t).view.read (Elt Ideal) (Cert.Spec.thirdArr (yarr2 V c) (warr2 V c) (rarr2 V c)) := by
  have h1 : t.val % 4 = 3 := (flush2_3 t).mp hf
  show (cfg2.win 3).cut (grid2.coords t) (outAt2 V c t) = _
  rw [outAt2_last V c t h1, scratch2_eq V c t.val t.isLt, bk2_of_last t h1]
  refine funext fun (y : S2048x1024.Idx) => ?_
  obtain ⟨p, q, rfl⟩ : ∃ (p : Fin 2048) (q : Fin 1024), y = ix2 p q := ⟨y 0, y 1, eq_ix2 y⟩
  refine Eq.trans ?_ (read_blk2_3 (Cert.Spec.thirdArr (yarr2 V c) (warr2 V c) (rarr2 V c)) t p q).symm
  exact out2_apply (yarr2 V c) (warr2 V c) (rarr2 V c) t p q

/-- The region's output array ends holding the third stage's array of the three arrays it read. -/
theorem value2 :
    (dat2 V c).arrAt 3 cfg2.N = Cert.Spec.thirdArr (V c main_v7) (V c main_arg9) (V c main_v10) :=
  (dat2 V c).arrAt_eq_of_cover 3 (Cert.Spec.thirdArr (yarr2 V c) (warr2 V c) (rarr2 V c)) (flushed2_eq V c) cover2_3

end Cert.KernelIdeal.Hand

end
-- ==== Proof.HostSpec.lean ====
import Idealize.ShloMosaic.PureOps.Ideal
import Idealize.ShloMosaic.Lib.ValueIdx

noncomputable section

namespace Cert.HostSpec

open Idealize.ShloMosaic Idealize.ShloMosaic.ValueIdx

abbrev SVec : Shape := ⟨1, ![4096]⟩

abbrev SRow : Shape := ⟨2, ![1, 4096]⟩

abbrev S0 : Shape := ⟨0, ![]⟩

abbrev STab : Shape := ⟨2, ![65536, 8]⟩

abbrev SQ : Shape := ⟨2, ![4096, 512]⟩

abbrev SQ1 : Shape := ⟨3, ![4096, 512, 1]⟩

abbrev SG : Shape := ⟨3, ![4096, 512, 8]⟩

abbrev SSq : Shape := ⟨2, ![4096, 4096]⟩

def rowOf (v : SVec.Idx → EReal) : SRow.Idx → EReal := fun i => v (ix1 (i 1))

def rcat (a : (⟨2, ![48, 4096]⟩ : Shape).Idx → EReal) (b : (⟨2, ![16, 4096]⟩ : Shape).Idx → EReal) :
    (⟨2, ![64, 4096]⟩ : Shape).Idx → EReal :=
  fun j => if h : (j 0).val < 48 then a (ix2 ⟨(j 0).val, h⟩ (j 1))
    else b (ix2 ⟨(j 0).val - 48, by have := (j 0).isLt; change (j 0).val < 64 at this; omega⟩ (j 1))

def lcat (a : (⟨2, ![4096, 48]⟩ : Shape).Idx → EReal) (b : (⟨2, ![4096, 16]⟩ : Shape).Idx → EReal) :
    (⟨2, ![4096, 64]⟩ : Shape).Idx → EReal :=
  fun j => if h : (j 1).val < 48 then a (ix2 (j 0) ⟨(j 1).val, h⟩)
    else b (ix2 (j 0) ⟨(j 1).val - 48, by have := (j 1).isLt; change (j 1).val < 64 at this; omega⟩)

theorem rcat_left (a : (⟨2, ![48, 4096]⟩ : Shape).Idx → EReal) (b : (⟨2, ![16, 4096]⟩ : Shape).Idx → EReal) (r : Fin 48) (k : Fin 4096) :
    rcat a b (ix2 (Fin.castAdd 16 r) k) = a (ix2 r k) := by
  unfold rcat
  rw [dif_pos (show ((ix2 (Fin.castAdd 16 r) k : (⟨2, ![64, 4096]⟩ : Shape).Idx) 0).val < 48 from r.isLt)]
  rfl

theorem rcat_right (a : (⟨2, ![48, 4096]⟩ : Shape).Idx → EReal) (b : (⟨2, ![16, 4096]⟩ : Shape).Idx → EReal) (r : Fin 16) (k : Fin 4096) :
    rcat a b (ix2 (Fin.natAdd 48 r) k) = b (ix2 r k) := by
  unfold rcat
  rw [dif_neg (show ¬((ix2 (Fin.natAdd 48 r) k : (⟨2, ![64, 4096]⟩ : Shape).Idx) 0).val < 48 from by show ¬(48 + r.val < 48); omega)]
  refine congrArg b (funext fun i => ?_)
  match i with
  | ⟨0, _⟩ => exact Fin.ext (by show 48 + r.val - 48 = r.val; omega)
  | ⟨1, _⟩ => rfl

theorem lcat_left (a : (⟨2, ![4096, 48]⟩ : Shape).Idx → EReal) (b : (⟨2, ![4096, 16]⟩ : Shape).Idx → EReal) (m : Fin 4096) (r : Fin 48) :
    lcat a b (ix2 m (Fin.castAdd 16 r)) = a (ix2 m r) := by
  unfold lcat
  rw [dif_pos (show ((ix2 m (Fin.castAdd 16 r) : (⟨2, ![4096, 64]⟩ : Shape).Idx) 1).val < 48 from r.isLt)]
  rfl

theorem lcat_right (a : (⟨2, ![4096, 48]⟩ : Shape).Idx → EReal) (b : (⟨2, ![4096, 16]⟩ : Shape).Idx → EReal) (m : Fin 4096) (r : Fin 16) :
    lcat a b (ix2 m (Fin.natAdd 48 r)) = b (ix2 m r) := by
  unfold lcat
  rw [dif_neg (show ¬((ix2 m (Fin.natAdd 48 r) : (⟨2, ![4096, 64]⟩ : Shape).Idx) 1).val < 48 from by show ¬(48 + r.val < 48); omega)]
  refine congrArg b (funext fun i => ?_)
  match i with
  | ⟨0, _⟩ => rfl
  | ⟨1, _⟩ => exact Fin.ext (by show 48 + r.val - 48 = r.val; omega)

theorem bcast_S0_SQ : S0.BroadcastsInDim SQ (![] : Fin 0 → Fin SQ.rank) := by decide
theorem bcast_SQ_SQ1 : SQ.BroadcastsInDim SQ1 (![0, 1] : Fin 2 → Fin SQ1.rank) := by decide
theorem casts_SG_SSq : SG.ShapeCasts SSq := by decide
theorem takeRec_wf : GatherDims.WF STab SQ1 SG [2] [0] [] [0] [] 2 ![1, 8] := by decide

def takeRec : GatherDims STab SQ1 SG where
  offsetDims := [2]
  collapsedSliceDims := [0]
  operandBatchingDims := []
  startIndicesBatchingDims := []
  startIndexMap := [0]
  indexVectorDim := 2
  sliceSizes := ![1, 8]
  wf := takeRec_wf

def wrapIdx (Q : IVec SQ 32) : IVec SQ1 32 :=
  broadcastInDim SQ1 ![0, 1] bcast_SQ_SQ1
    (select (cmpi .slt Q (broadcastInDim SQ ![] bcast_S0_SQ (constantI S0 32 0#32)))
      (addi Q (broadcastInDim SQ ![] bcast_S0_SQ (constantI S0 32 65536#32))) Q)

def decoded (table : STab.Idx → EReal) (Q : IVec SQ 32) : SSq.Idx → EReal :=
  shapeCast SSq (Host.gather takeRec table (wrapIdx Q)) casts_SG_SSq

end Cert.HostSpec

end
-- ==== Proof.HostOps.lean ====
import proofs.«426325_j37211596652926_1_alg».proof.Proof.Gen.KernelIdeal.Launch
import proofs.«426325_j37211596652926_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value
import Idealize.ShloMosaic.Lib.IdealHost
import proofs.«426325_j37211596652926_1_alg».proof.Proof.HostSpec

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

theorem toInt_neg65536 : (4294901760#32 : BitVec 32).toInt = -65536 := by decide
theorem toInt_65536 : (65536#32 : BitVec 32).toInt = 65536 := by decide
theorem toInt_65535 : (65535#32 : BitVec 32).toInt = 65535 := by decide
theorem toInt_zero32 : (0#32 : BitVec 32).toInt = 0 := by decide

theorem cmpi_sge_eq_one (x y : BitVec 32) : IntOp.cmpi .sge x y = 1#1 ↔ y.toInt ≤ x.toInt := by
  unfold IntOp.cmpi
  rw [StableHlo.Predicate.ofBool_eq_one_iff]
  exact BitVec.sle_iff_toInt_le
theorem cmpi_sle_eq_one (x y : BitVec 32) : IntOp.cmpi .sle x y = 1#1 ↔ x.toInt ≤ y.toInt := by
  unfold IntOp.cmpi
  rw [StableHlo.Predicate.ofBool_eq_one_iff]
  exact BitVec.sle_iff_toInt_le
theorem cmpi_slt_eq_one (x y : BitVec 32) : IntOp.cmpi .slt x y = 1#1 ↔ x.toInt < y.toInt := by
  unfold IntOp.cmpi
  rw [StableHlo.Predicate.ofBool_eq_one_iff]
  exact BitVec.slt_iff_toInt_lt

abbrev wrapWord (q : BitVec 32) : BitVec 32 := Scalar.select (IntOp.cmpi .slt q 0#32) (IntOp.addi q 65536#32) q

theorem wrapWord_range (q : BitVec 32) (h0 : -65536 ≤ q.toInt) (h1 : q.toInt ≤ 65535) :
    0 ≤ (wrapWord q).toInt ∧ (wrapWord q).toInt ≤ 65535 := by
  unfold wrapWord Scalar.select
  by_cases hneg : q.toInt < 0
  · have hc : IntOp.cmpi .slt q 0#32 = 1 := (cmpi_slt_eq_one q 0#32).2 (by rw [toInt_zero32]; exact hneg)
    rw [if_pos hc]
    have e : (IntOp.addi q 65536#32).toInt = q.toInt + 65536 := by
      show (q + 65536#32).toInt = _
      rw [BitVec.toInt_add, toInt_65536]
      exact Int.bmod_eq_of_le (by omega) (by omega)
    rw [e]; omega
  · have hc : ¬ IntOp.cmpi .slt q 0#32 = 1 := fun h => hneg (by have := (cmpi_slt_eq_one q 0#32).1 h; rw [toInt_zero32] at this; exact this)
    rw [if_neg hc]
    omega

theorem wrapWord_mask (q : BitVec 32) (h0 : -65536 ≤ q.toInt) (h1 : q.toInt ≤ 65535) :
    IntOp.andi (IntOp.cmpi .sge (wrapWord q) 0#32) (IntOp.cmpi .sle (wrapWord q) 65535#32) = 1#1 := by
  obtain ⟨a, b⟩ := wrapWord_range q h0 h1
  exact IntOp.andi_eq_one.2 ⟨(cmpi_sge_eq_one _ _).2 (by rw [toInt_zero32]; exact a),
    (cmpi_sle_eq_one _ _).2 (by rw [toInt_65535]; exact b)⟩

theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_one f hf l

theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

open Cert.HostSpec (rowOf rcat lcat decoded wrapIdx takeRec)

theorem shapeCast_row (v : S4096.Idx → EReal) (h : S4096.ShapeCasts S1x4096) :
    (shapeCast S1x4096 v h : S1x4096.Idx → EReal) = rowOf v := by
  funext i
  obtain ⟨z, k, rfl⟩ : ∃ (z : Fin 1) (k : Fin 4096), i = ix2 z k := ⟨i 0, i 1, eq_ix2 i⟩
  refine shapeCast_apply v h (ix2 z k) (ix1 k) ?_
  rw [Shape.rowMajor_val_one, Shape.rowMajor_val_two]
  have hz := z.isLt
  show k.val = z.val * 4096 + k.val
  omega

theorem after0_v0 : (StableHlo.after (hostOps0 (F := Ideal)) V (Proc.devRef .tc main_v0) : S1x4096.Idx → EReal)
    = rowOf (V (Proc.devRef .tc main_arg1)) := by
  after_results
  exact shapeCast_row _ _

theorem after2_v10 : (StableHlo.after (hostOps2 (F := Ideal)) V (Proc.devRef .tc main_v10) : S1x4096.Idx → EReal)
    = rowOf (V (Proc.devRef .tc main_arg2)) := by
  after_results
  refine (shapeCast_row _ _).trans (congrArg rowOf ?_)
  funext i
  rw [mulf_apply, broadcastInDim_scalar_apply, constant_apply, Ideal.ofBits_one_f32, mul_one]

theorem after11_v5 : (StableHlo.after (hostOps1_1 (F := Ideal)) V (Proc.devRef .tc main_v5) : S64x4096.Idx → EReal)
    = rcat (V (Proc.devRef .tc main_arg7)) (V (Proc.devRef .tc main_arg5)) := by
  after_results
  funext j
  obtain ⟨r, k, rfl⟩ : ∃ (r : Fin 64) (k : Fin 4096), j = ix2 r k := ⟨j 0, j 1, eq_ix2 j⟩
  unfold Cert.HostSpec.rcat
  by_cases hr : r.val < 48
  · rw [dif_pos (show ((ix2 r k : (⟨2, ![64, 4096]⟩ : Shape).Idx) 0).val < 48 from hr)]
    refine concatenate_pair_apply_left (t := S64x4096) (s₁ := S48x4096) (s₂ := S16x4096) (0 : Fin 2) _ _ _ (ix2 r k) rfl (ix2 (⟨r.val, hr⟩ : Fin 48) k) fun b => ?_
    match b with
    | ⟨0, _⟩ => rfl
    | ⟨1, _⟩ => rfl
  · rw [dif_neg (show ¬ ((ix2 r k : (⟨2, ![64, 4096]⟩ : Shape).Idx) 0).val < 48 from hr)]
    refine concatenate_pair_apply_right (t := S64x4096) (s₁ := S48x4096) (s₂ := S16x4096) (0 : Fin 2) _ _ _ (ix2 r k) rfl rfl (ix2 (⟨r.val - 48, by omega⟩ : Fin 16) k) (fun b hb => ?_) ?_
    · match b with
      | ⟨0, _⟩ => exact absurd rfl hb
      | ⟨1, _⟩ => rfl
    · show r.val - 48 + 48 = r.val
      omega

theorem after11_v6 : (StableHlo.after (hostOps1_1 (F := Ideal)) V (Proc.devRef .tc main_v6) : S4096x64.Idx → EReal)
    = lcat (V (Proc.devRef .tc main_arg6)) (V (Proc.devRef .tc main_arg4)) := by
  after_results
  funext j
  obtain ⟨m, r, rfl⟩ : ∃ (m : Fin 4096) (r : Fin 64), j = ix2 m r := ⟨j 0, j 1, eq_ix2 j⟩
  unfold Cert.HostSpec.lcat
  by_cases hr : r.val < 48
  · rw [dif_pos (show ((ix2 m r : (⟨2, ![4096, 64]⟩ : Shape).Idx) 1).val < 48 from hr)]
    refine concatenate_pair_apply_left (t := S4096x64) (s₁ := S4096x48) (s₂ := S4096x16) (1 : Fin 2) _ _ _ (ix2 m r) rfl (ix2 m (⟨r.val, hr⟩ : Fin 48)) fun b => ?_
    match b with
    | ⟨0, _⟩ => rfl
    | ⟨1, _⟩ => rfl
  · rw [dif_neg (show ¬ ((ix2 m r : (⟨2, ![4096, 64]⟩ : Shape).Idx) 1).val < 48 from hr)]
    refine concatenate_pair_apply_right (t := S4096x64) (s₁ := S4096x48) (s₂ := S4096x16) (1 : Fin 2) _ _ _ (ix2 m r) rfl rfl (ix2 m (⟨r.val - 48, by omega⟩ : Fin 16)) (fun b hb => ?_) ?_
    · match b with
      | ⟨0, _⟩ => rfl
      | ⟨1, _⟩ => exact absurd rfl hb
    · show r.val - 48 + 48 = r.val
      omega

theorem after11_v4 : (StableHlo.after (hostOps1_1 (F := Ideal)) V (Proc.devRef .tc main_v4) : S4096x4096.Idx → EReal)
    = shapeCast S4096x4096 (V (Proc.devRef .tc main_v2) : S4096x512x8.Idx → EReal) shapeCasts_S4096x512x8_S4096x4096 := by
  after_results
  rfl

theorem select_of_all_one {s : Shape} {α : Type} (c : IVec s 1) (a b : s.Idx → α) (hc : ∀ j, c j = 1#1) :
    select c a b = a := by
  funext j
  rw [select_apply, hc j, select_one]

theorem wrapIdx_apply (Q : IVec S4096x512 32) (i : S4096x512x1.Idx) :
    wrapIdx Q i = wrapWord (Q (ix2 (i 0) (i 1))) := by
  unfold Cert.HostSpec.wrapIdx
  refine (broadcastInDim_apply _ _ _ i (ix2 (i 0) (i 1)) fun a => ?_).trans rfl
  match a with
  | ⟨0, _⟩ => rfl
  | ⟨1, _⟩ => rfl

theorem after1_v2
    (hQ : ∀ i, -65536 ≤ ((V (Proc.devRef .tc main_arg10) : IVec S4096x512 32) i).toInt
      ∧ ((V (Proc.devRef .tc main_arg10) : IVec S4096x512 32) i).toInt ≤ 65535) :
    (StableHlo.after (hostOps1 (F := Ideal)) V (Proc.devRef .tc main_v2) : S4096x512x8.Idx → EReal)
      = Host.gather takeRec (V (Proc.devRef .tc main_arg3)) (wrapIdx (V (Proc.devRef .tc main_arg10))) := by
  simp only [hostOps1, StableHlo.TRef.nullary, StableHlo.TRef.unary, StableHlo.TRef.binary, StableHlo.TRef.ternary,
    StableHlo.TRef.ofBuf, StableHlo.TRef.toBuf, cast_eq]
  after_results_simp
  refine (select_of_all_one _ _ _ fun j => ?_).trans rfl
  refine (broadcastInDim_apply _ _ _ j (ix2 (j 0) (j 1)) fun a => ?_).trans
    (reduce_andi_of_all _ _ _ _ (fun _ => rfl) (fun i => ?_) _)
  · match a with
    | ⟨0, _⟩ => rfl
    | ⟨1, _⟩ => rfl
  · show IntOp.andi (IntOp.cmpi .sge (wrapIdx (V (Proc.devRef .tc main_arg10)) i) 0#32)
      (IntOp.cmpi .sle (wrapIdx (V (Proc.devRef .tc main_arg10)) i) 65535#32) = 1#1
    rw [wrapIdx_apply]
    exact wrapWord_mask _ (hQ _).1 (hQ _).2

theorem after1_v4
    (hQ : ∀ i, -65536 ≤ ((V (Proc.devRef .tc main_arg10) : IVec S4096x512 32) i).toInt
      ∧ ((V (Proc.devRef .tc main_arg10) : IVec S4096x512 32) i).toInt ≤ 65535) :
    (StableHlo.after (hostOps1_1 (F := Ideal)) (StableHlo.after (hostOps1 (F := Ideal)) V) (Proc.devRef .tc main_v4)
        : S4096x4096.Idx → EReal)
      = decoded (V (Proc.devRef .tc main_arg3)) (V (Proc.devRef .tc main_arg10)) :=
  (after11_v4 (StableHlo.after (hostOps1 (F := Ideal)) V)).trans
    (congrArg (fun g : S4096x512x8.Idx → EReal => shapeCast S4096x4096 g shapeCasts_S4096x512x8_S4096x4096)
      (after1_v2 V hQ))

instance : Subsingleton Cert.Pre_finite_inputs.S_.Idx := ⟨fun a b => funext fun d => d.elim0⟩

theorem pre_decode {F : FTy → Type} [FloatOps F] [Cert.Pre_finite_inputs.Facts]
    (a0 : FVec F Cert.Pre_finite_inputs.S8192x4096 .f32) (a1 : FVec F Cert.Pre_finite_inputs.S4096 .f32)
    (a2 : FVec F Cert.Pre_finite_inputs.S4096 .f32) (a3 : FVec F Cert.Pre_finite_inputs.S65536x8 .f32)
    (a4 : FVec F Cert.Pre_finite_inputs.S4096x16 .f32) (a5 : FVec F Cert.Pre_finite_inputs.S16x4096 .f32)
    (a6 : FVec F Cert.Pre_finite_inputs.S4096x48 .f32) (a7 : FVec F Cert.Pre_finite_inputs.S48x4096 .f32)
    (a8 : FVec F Cert.Pre_finite_inputs.S4096x4096 .f32) (a9 : FVec F Cert.Pre_finite_inputs.S4096x4096 .f32)
    (a10 : IVec Cert.Pre_finite_inputs.S4096x512 32)
    (h : Cert.Pre_finite_inputs.fn (F := F) a0 a1 a2 a3 a4 a5 a6 a7 a8 a9 a10 = fun _ => 1#1)
    (i : Cert.Pre_finite_inputs.S4096x512.Idx) : -65536 ≤ (a10 i).toInt ∧ (a10 i).toInt ≤ 65535 := by
  have e := congrFun h ix0
  unfold Cert.Pre_finite_inputs.fn Cert.Pre_finite_inputs.fn_part1 Cert.Pre_finite_inputs.fn_part2
    Cert.Pre_finite_inputs.fn_part3 at e
  dsimp only at e
  obtain ⟨e52, e55⟩ := IntOp.andi_eq_one.1 (show IntOp.andi _ _ = 1#1 from e)
  obtain ⟨-, e51⟩ := IntOp.andi_eq_one.1 (show IntOp.andi _ _ = 1#1 from e52)
  have g1 := Host.reduce_andi_all _ _ _ _ _ e51 i
  have g2 := Host.reduce_andi_all _ _ _ _ _ e55 i
  have c1 := (cmpi_sge_eq_one _ _).1 (show IntOp.cmpi .sge (a10 i) 4294901760#32 = 1#1 from g1)
  have c2 := (cmpi_slt_eq_one _ _).1 (show IntOp.cmpi .slt (a10 i) 65536#32 = 1#1 from g2)
  rw [toInt_neg65536] at c1
  rw [toInt_65536] at c2
  exact ⟨c1, by omega⟩

end Cert.KernelIdeal.Hand
end
-- ==== Proof.RefValue.lean ====
import proofs.«426325_j37211596652926_1_alg».proof.Proof.Gen.ReferenceIdeal.Run
import proofs.«426325_j37211596652926_1_alg».proof.Proof.Gen.ReferenceIdeal.Read
import proofs.«426325_j37211596652926_1_alg».proof.Proof.Spec
import proofs.«426325_j37211596652926_1_alg».proof.Proof.HostSpec

noncomputable section

namespace Cert.ReferenceIdeal.RefValue

open Cert.ReferenceIdeal Cert.ReferenceIdeal.Gen Cert.ReferenceIdeal.Read Idealize.ShloMosaic Idealize.ShloMosaic.ValueIdx Cert.Spec
open Cert.HostSpec (rowOf rcat lcat decoded rcat_left rcat_right lcat_left lcat_right)

theorem lidx3 (b : Fin 8192) (n k : Fin 4096) : lidx_main_v3 (ix2 b n) k = ix2 b k := eq_ix2 _
theorem ridx3 (b : Fin 8192) (n k : Fin 4096) : ridx_main_v3 (ix2 b n) k = ix2 k n := eq_ix2 _
theorem idx1 (b : Fin 8192) (k : Fin 4096) : idx_main_v1 (ix2 b k) = ix2 (0 : Fin 1) k := eq_ix2 _
theorem idx0 (z : Fin 1) (k : Fin 4096) : idx_main_v0 (ix2 z k) = ix1 k := eq_ix1 _

theorem stage1 (x0 : S8192x4096.Idx → EReal) (x1 : S4096.Idx → EReal) (x8 : S4096x4096.Idx → EReal) :
    val_main_v3 (F := Ideal) x0 x1 x8 = firstArr x0 (rowOf x1) x8 := by
  funext j
  obtain ⟨b, n, rfl⟩ : ∃ (b : Fin 8192) (n : Fin 4096), j = ix2 b n := ⟨j 0, j 1, eq_ix2 j⟩
  rw [val_main_v3_apply]
  unfold firstArr first
  refine Finset.sum_congr rfl fun k _ => ?_
  rw [val_main_v2_apply, val_main_v1_apply, val_main_v0_apply, lidx3, ridx3, idx1, idx0]
  rfl

theorem lidx13 (b : Fin 8192) (m k : Fin 4096) : lidx_main_v13 (ix2 b m) k = ix2 b k := eq_ix2 _
theorem ridx13 (b : Fin 8192) (m k : Fin 4096) : ridx_main_v13 (ix2 b m) k = ix2 k m := eq_ix2 _
theorem idx12 (k m : Fin 4096) : idx_main_v12 (ix2 k m) = ix2 m k := eq_ix2 _
theorem lidx19 (b : Fin 8192) (m : Fin 4096) (r : Fin 48) : lidx_main_v19 (ix2 b m) r = ix2 b r := eq_ix2 _
theorem ridx19 (b : Fin 8192) (m : Fin 4096) (r : Fin 48) : ridx_main_v19 (ix2 b m) r = ix2 r m := eq_ix2 _
theorem lidx17 (b : Fin 8192) (r : Fin 48) (k : Fin 4096) : lidx_main_v17 (ix2 b r) k = ix2 b k := eq_ix2 _
theorem ridx17 (b : Fin 8192) (r : Fin 48) (k : Fin 4096) : ridx_main_v17 (ix2 b r) k = ix2 k r := eq_ix2 _
theorem idx16 (k : Fin 4096) (r : Fin 48) : idx_main_v16 (ix2 k r) = ix2 r k := eq_ix2 _
theorem idx18 (r : Fin 48) (m : Fin 4096) : idx_main_v18 (ix2 r m) = ix2 m r := eq_ix2 _
theorem lidx24 (b : Fin 8192) (m : Fin 4096) (r : Fin 16) : lidx_main_v24 (ix2 b m) r = ix2 b r := eq_ix2 _
theorem ridx24 (b : Fin 8192) (m : Fin 4096) (r : Fin 16) : ridx_main_v24 (ix2 b m) r = ix2 r m := eq_ix2 _
theorem lidx22 (b : Fin 8192) (r : Fin 16) (k : Fin 4096) : lidx_main_v22 (ix2 b r) k = ix2 b k := eq_ix2 _
theorem ridx22 (b : Fin 8192) (r : Fin 16) (k : Fin 4096) : ridx_main_v22 (ix2 b r) k = ix2 k r := eq_ix2 _
theorem idx21 (k : Fin 4096) (r : Fin 16) : idx_main_v21 (ix2 k r) = ix2 r k := eq_ix2 _
theorem idx23 (r : Fin 16) (m : Fin 4096) : idx_main_v23 (ix2 r m) = ix2 m r := eq_ix2 _

theorem main15 (x0 : S8192x4096.Idx → EReal) (x1 : S4096.Idx → EReal) (x3 : S65536x8.Idx → EReal)
    (x8 : S4096x4096.Idx → EReal) (x10 : S4096x512.Idx → BitVec 32) (b : Fin 8192) (m : Fin 4096) :
    val_main_v15 (F := Ideal) x0 x1 x3 x8 x10 (ix2 b m)
      = (∑ k : Fin 4096, val_main_v3 (F := Ideal) x0 x1 x8 (ix2 b k) * val_main_v11 (F := Ideal) x3 x10 (ix2 m k)) * c002 := by
  rw [val_main_v15_apply, val_main_v13_apply, val_main_v14_apply, val_main_cst_apply]
  simp only [lidx13, ridx13, val_main_v12_apply, idx12]
  rfl

theorem thin19 (x0 : S8192x4096.Idx → EReal) (x1 : S4096.Idx → EReal) (x6 : S4096x48.Idx → EReal)
    (x7 : S48x4096.Idx → EReal) (x8 : S4096x4096.Idx → EReal) (b : Fin 8192) (m : Fin 4096) :
    val_main_v19 (F := Ideal) x0 x1 x6 x7 x8 (ix2 b m)
      = ∑ r : Fin 48, (∑ k : Fin 4096, val_main_v3 (F := Ideal) x0 x1 x8 (ix2 b k) * x7 (ix2 r k)) * x6 (ix2 m r) := by
  rw [val_main_v19_apply]
  simp only [lidx19, ridx19, val_main_v17_apply, lidx17, ridx17, val_main_v16_apply, idx16, val_main_v18_apply, idx18]

theorem thin24 (x0 : S8192x4096.Idx → EReal) (x1 : S4096.Idx → EReal) (x4 : S4096x16.Idx → EReal)
    (x5 : S16x4096.Idx → EReal) (x8 : S4096x4096.Idx → EReal) (b : Fin 8192) (m : Fin 4096) :
    val_main_v24 (F := Ideal) x0 x1 x4 x5 x8 (ix2 b m)
      = ∑ r : Fin 16, (∑ k : Fin 4096, val_main_v3 (F := Ideal) x0 x1 x8 (ix2 b k) * x5 (ix2 r k)) * x4 (ix2 m r) := by
  rw [val_main_v24_apply]
  simp only [lidx24, ridx24, val_main_v22_apply, lidx22, ridx22, val_main_v21_apply, idx21, val_main_v23_apply, idx23]

theorem stage2 (x0 : S8192x4096.Idx → EReal) (x1 : S4096.Idx → EReal) (x3 : S65536x8.Idx → EReal)
    (x4 : S4096x16.Idx → EReal) (x5 : S16x4096.Idx → EReal) (x6 : S4096x48.Idx → EReal) (x7 : S48x4096.Idx → EReal)
    (x8 : S4096x4096.Idx → EReal) (x10 : S4096x512.Idx → BitVec 32) :
    val_main_v25 (F := Ideal) x0 x1 x3 x4 x5 x6 x7 x8 x10
      = secondArr (val_main_v3 (F := Ideal) x0 x1 x8) (val_main_v11 (F := Ideal) x3 x10) (rcat x7 x5) (lcat x6 x4) := by
  funext j
  obtain ⟨b, m, rfl⟩ : ∃ (b : Fin 8192) (m : Fin 4096), j = ix2 b m := ⟨j 0, j 1, eq_ix2 j⟩
  rw [val_main_v25_apply, val_main_v20_apply, main15, thin19, thin24]
  unfold secondArr second
  rw [sum_48_16]
  simp only [rcat_left, rcat_right, lcat_left, lcat_right]
  exact add_assoc _ _ _

theorem lidx26 (b : Fin 8192) (j m : Fin 4096) : lidx_main_v26 (ix2 b j) m = ix2 b m := eq_ix2 _
theorem ridx26 (b : Fin 8192) (j m : Fin 4096) : ridx_main_v26 (ix2 b j) m = ix2 m j := eq_ix2 _
theorem idx30 (b : Fin 8192) (j : Fin 4096) : idx_main_v30 (ix2 b j) = ix2 (0 : Fin 1) j := eq_ix2 _
theorem idx29 (z : Fin 1) (j : Fin 4096) : idx_main_v29 (ix2 z j) = ix1 j := eq_ix1 _

theorem one_f32 : Ideal.ofBits .f32 0x3F800000#32 = 1 := by
  simp [Ideal.ofBits, Ideal.ieee, -EReal.coe_mul]; norm_num

theorem last31 (x0 : S8192x4096.Idx → EReal) (x1 x2 : S4096.Idx → EReal) (x3 : S65536x8.Idx → EReal)
    (x4 : S4096x16.Idx → EReal) (x5 : S16x4096.Idx → EReal) (x6 : S4096x48.Idx → EReal) (x7 : S48x4096.Idx → EReal)
    (x8 x9 : S4096x4096.Idx → EReal) (x10 : S4096x512.Idx → BitVec 32) (b : Fin 8192) (j : Fin 4096) :
    val_main_v31 (F := Ideal) x0 x1 x2 x3 x4 x5 x6 x7 x8 x9 x10 (ix2 b j)
      = ((∑ m : Fin 4096, val_main_v25 (F := Ideal) x0 x1 x3 x4 x5 x6 x7 x8 x10 (ix2 b m) * x9 (ix2 m j))
          * Ideal.ofBits .f32 0x3F800000#32) * x2 (ix1 j) := by
  rw [val_main_v31_apply, val_main_v28_apply, val_main_v26_apply, val_main_v27_apply, val_main_cst_1_apply,
    val_main_v30_apply, val_main_v29_apply, idx30, idx29]
  simp only [lidx26, ridx26]
  rfl

theorem stage3 (x0 : S8192x4096.Idx → EReal) (x1 x2 : S4096.Idx → EReal) (x3 : S65536x8.Idx → EReal)
    (x4 : S4096x16.Idx → EReal) (x5 : S16x4096.Idx → EReal) (x6 : S4096x48.Idx → EReal) (x7 : S48x4096.Idx → EReal)
    (x8 x9 : S4096x4096.Idx → EReal) (x10 : S4096x512.Idx → BitVec 32) :
    val_main_v31 (F := Ideal) x0 x1 x2 x3 x4 x5 x6 x7 x8 x9 x10
      = thirdArr (val_main_v25 (F := Ideal) x0 x1 x3 x4 x5 x6 x7 x8 x10) x9 (rowOf x2) := by
  funext i
  obtain ⟨b, j, rfl⟩ : ∃ (b : Fin 8192) (j : Fin 4096), i = ix2 b j := ⟨i 0, i 1, eq_ix2 i⟩
  rw [last31, one_f32, mul_one]
  rfl

theorem ref_value (x0 : S8192x4096.Idx → EReal) (x1 x2 : S4096.Idx → EReal) (x3 : S65536x8.Idx → EReal)
    (x4 : S4096x16.Idx → EReal) (x5 : S16x4096.Idx → EReal) (x6 : S4096x48.Idx → EReal) (x7 : S48x4096.Idx → EReal)
    (x8 x9 : S4096x4096.Idx → EReal) (x10 : S4096x512.Idx → BitVec 32) :
    val_main_v31 (F := Ideal) x0 x1 x2 x3 x4 x5 x6 x7 x8 x9 x10
      = thirdArr (secondArr (firstArr x0 (rowOf x1) x8) (decoded x3 x10) (rcat x7 x5) (lcat x6 x4)) x9 (rowOf x2) := by
  rw [stage3, stage2, stage1]
  rfl

section Run
open Idealize.SL.Sem Idealize.ShloMosaic.TcCoe

def refArr (x0 : S8192x4096.Idx → EReal) (x1 x2 : S4096.Idx → EReal) (x3 : S65536x8.Idx → EReal)
    (x4 : S4096x16.Idx → EReal) (x5 : S16x4096.Idx → EReal) (x6 : S4096x48.Idx → EReal) (x7 : S48x4096.Idx → EReal)
    (x8 x9 : S4096x4096.Idx → EReal) (x10 : S4096x512.Idx → BitVec 32) : SAct.Idx → EReal :=
  thirdArr (secondArr (firstArr x0 (rowOf x1) x8) (decoded x3 x10) (rcat x7 x5) (lcat x6 x4)) x9 (rowOf x2)

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
        = refArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono
    (fun _ h c => ⟨(h c).1.trans ((val_main_v31_eq _ _ _ _ _ _ _ _ _ _ _).trans (ref_value _ _ _ _ _ _ _ _ _ _ _)), (h c).2⟩)
    (Cert.ReferenceIdeal.Value.run (F := Ideal) m ρ)

end Run

end Cert.ReferenceIdeal.RefValue

end
-- ==== Proof.Assemble.lean ====
import proofs.«426325_j37211596652926_1_alg».proof.Defs
import proofs.«426325_j37211596652926_1_alg».proof.Proof.Run
import proofs.«426325_j37211596652926_1_alg».proof.Proof.R0.Value
import proofs.«426325_j37211596652926_1_alg».proof.Proof.R1.Value
import proofs.«426325_j37211596652926_1_alg».proof.Proof.R2.Value
import proofs.«426325_j37211596652926_1_alg».proof.Proof.HostOps
import proofs.«426325_j37211596652926_1_alg».proof.Proof.RefValue

noncomputable section

namespace Cert.KernelIdeal.Hand

open Cert.KernelIdeal Cert.KernelIdeal.Gen
open Idealize.ShloMosaic Idealize.ShloMosaic.TcCoe Idealize.SL.Sem
open Cert.Spec Cert.HostSpec

variable (m : (ℓ : Loc nD τ sig) → Buf (Elt Ideal) ℓ) (ρ : Dev nD → PrngReg) (c : Dev nD)

/-- The launch contents of a buffer. -/
abbrev arg (b : Ref sig .tc) : Buf (Elt Ideal) ((c.tc : Thread nD τ).loc b) := m ((c.tc : Thread nD τ).loc b)

/-- The result as the three stages composed over launch contents: each stage's output array is that stage of its entry arrays, and each entry array is a host function of arguments. -/
theorem kernel_value
    (hQ : ∀ i, -65536 ≤ ((arg m c main_arg10 : IVec S4096x512 32) i).toInt ∧ ((arg m c main_arg10 : IVec S4096x512 32) i).toInt ≤ 65535) :
    (W7 m ρ c (Proc.devRef .tc main_v11) : S8192x4096.Idx → EReal)
      = thirdArr (secondArr (firstArr (arg m c main_arg0) (rowOf (arg m c main_arg1)) (arg m c main_arg8))
            (decoded (arg m c main_arg3) (arg m c main_arg10)) (rcat (arg m c main_arg7) (arg m c main_arg5))
            (lcat (arg m c main_arg6) (arg m c main_arg4)))
          (arg m c main_arg9) (rowOf (arg m c main_arg2)) :=
  have h1 := (W4_main_v1 m ρ c).trans <| (value0 (In0 m ρ) c).trans <|
    congr (congr (congrArg firstArr (W1_kept m ρ c main_arg0 (by decide))) (after0_v0 (W0 m ρ c))) (W1_kept m ρ c main_arg8 (by decide))
  have w4 := (after1_v4 (W2 m ρ c) (by rw [W2_kept m ρ c main_arg10 (by decide)]; exact hQ)).trans <|
    congr (congrArg decoded (W2_kept m ρ c main_arg3 (by decide))) (W2_kept m ρ c main_arg10 (by decide))
  have r5 := (after11_v5 (W3 m ρ c)).trans <| congr (congrArg rcat (W3_kept m ρ c main_arg7 (by decide))) (W3_kept m ρ c main_arg5 (by decide))
  have l6 := (after11_v6 (W3 m ρ c)).trans <| congr (congrArg lcat (W3_kept m ρ c main_arg6 (by decide))) (W3_kept m ρ c main_arg4 (by decide))
  have h7 := (W6_main_v7 m ρ c).trans <| (value1 (In1 m ρ) c).trans <| congr (congr (congr (congrArg secondArr h1) w4) r5) l6
  (W7_main_v11 m ρ c).trans <| (value2 (In2 m ρ) c).trans <|
    congr (congr (congrArg thirdArr h7) (W6_kept m ρ c main_arg9 (by decide)))
      ((after2_v10 (W5 m ρ c)).trans (congrArg rowOf (W5_kept m ρ c main_arg2 (by decide))))

end Cert.KernelIdeal.Hand

namespace Cert.Proof.Claims

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W7 m ρ c (Proc.devRef .tc Cert.KernelIdeal.main_v11),
    Cert.KernelIdeal.Hand.value_all (F := Ideal) m ρ, ?_⟩
  refine (θ_run Cert.ReferenceIdeal.defs _ _).mono (fun r h c => ⟨(h c).1.trans ?_, (h c).2⟩)
    (Cert.ReferenceIdeal.RefValue.run_spec m' ρ')
  obtain ⟨e0, e1, e2, e3, e4, e5, e6, e7, e8, e9, e10⟩ := hagree c
  rw [e0, e1, e2, e3, e4, e5, e6, e7, e8, e9, e10]
  exact (Cert.KernelIdeal.Hand.kernel_value m ρ c (Cert.KernelIdeal.Hand.pre_decode _ _ _ _ _ _ _ _ _ _ _ (hpre c))).symm

end Cert.Proof.Claims

end
-- ==== Proof.lean ====
/-
  The two kernel programs are one text in two namespaces: four stretches of host lines around three tiled matrix
  products, each accumulated over four contraction blocks in a scratch and stored at the last. Their frames are that
  run read at the arguments; the reference has no kernel, so its frame is its run with the result dropped; the
  idealization rewrote nothing; and the idealized kernel computes the reference's three products of the same arrays
  wherever the index table is in the range the table look-up accepts.
-/
import proofs.«426325_j37211596652926_1_alg».proof.Defs
import proofs.«426325_j37211596652926_1_alg».proof.Proof.Gen.Kernel
import proofs.«426325_j37211596652926_1_alg».proof.Proof.Gen.KernelIdeal
import proofs.«426325_j37211596652926_1_alg».proof.Proof.Gen.ReferenceIdeal
import proofs.«426325_j37211596652926_1_alg».proof.Proof.Gen.Pre_finite_inputs
import proofs.«426325_j37211596652926_1_alg».proof.Proof.K.Run
import proofs.«426325_j37211596652926_1_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all (F := Bits) m ρ,
    fun m ρ _ => Cert.KernelIdeal.Hand.frame_all (F := Ideal) m ρ,
    fun m ρ _ => (θ_run Cert.ReferenceIdeal.defs _ _).mono (fun _ h c => (h c).2)
      (Cert.ReferenceIdeal.Value.run (F := Ideal) m ρ),
    trivial,
    Cert.Proof.Claims.algebraic⟩

end Cert.Proof

end
